-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S2x1048576 : Shape := ⟨2, ![2, 1048576]⟩
abbrev S65536 : Shape := ⟨1, ![65536]⟩
abbrev S64x64 : Shape := ⟨2, ![64, 64]⟩
abbrev S64 : Shape := ⟨1, ![64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg20 : FVec F S64 .f32) (main_arg21 : FVec F S64x64 .f32) (main_arg22 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S65536x64 .f32) (main_arg1 : IVec S2x1048576 32) (main_arg2 : IVec S65536 32) (main_arg3 : FVec F S64x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S65536x64 : Shape := ⟨2, ![65536, 64]⟩
abbrev S2x1048576 : Shape := ⟨2, ![2, 1048576]⟩
abbrev S65536 : Shape := ⟨1, ![65536]⟩
abbrev S64x64 : Shape := ⟨2, ![64, 64]⟩
abbrev S64 : Shape := ⟨1, ![64]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S65536x1 : Shape := ⟨2, ![65536, 1]⟩
abbrev S4096x64 : Shape := ⟨2, ![4096, 64]⟩
abbrev S4096x1 : Shape := ⟨2, ![4096, 1]⟩
abbrev S1114112x64 : Shape := ⟨2, ![1114112, 64]⟩
abbrev S1x64 : Shape := ⟨2, ![1, 64]⟩
abbrev S64x1 : Shape := ⟨2, ![64, 1]⟩

abbrev nBuf : Space → Nat
  | .hbm => 108
  | .vmem => 47
  | .smem => 0
  | _ => 0

abbrev bufTy : (tb : Table) → Fin (tcTables nBuf tb) → BufTy
  | .hbm, ⟨0, _⟩ => ⟨S65536x64, .f32⟩
  | .hbm, ⟨1, _⟩ => ⟨S2x1048576, .i32⟩
  | .hbm, ⟨2, _⟩ => ⟨S65536, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S65536, .i32⟩
  | .hbm, ⟨24, _⟩ => ⟨S1x1048576, .i32⟩
  | .hbm, ⟨25, _⟩ => ⟨S1048576, .i32⟩
  | .hbm, ⟨26, _⟩ => ⟨S1114112, .i32⟩
  | .hbm, ⟨27, _⟩ => ⟨S1x1048576, .i32⟩
  | .hbm, ⟨28, _⟩ => ⟨S1048576, .i32⟩
  | .hbm, ⟨29, _⟩ => ⟨S1114112, .i32⟩
  | .hbm, ⟨30, _⟩ => ⟨S_, .f32⟩
  | .hbm, ⟨31, _⟩ => ⟨S1114112, .f32⟩
  | .hbm, ⟨32, _⟩ => ⟨S_, .f32⟩
  | .hbm, ⟨33, _⟩ => ⟨S65536, .f32⟩
  | .hbm, ⟨34, _⟩ => ⟨S1114112x1, .i32⟩
  | .hbm, ⟨35, _⟩ => ⟨S65536, .f32⟩
  | .hbm, ⟨36, _⟩ => ⟨S_, .f32⟩
  | .hbm, ⟨37, _⟩ => ⟨S65536, .f32⟩
  | .hbm, ⟨38, _⟩ => ⟨S65536, .i1⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S65536, .f32⟩
  | .hbm, ⟨43, _⟩ => ⟨S_, .f32⟩
  | .hbm, ⟨44, _⟩ => ⟨S_, .f32⟩
  | .hbm, ⟨45, _⟩ => ⟨S65536, .f32⟩
  | .hbm, ⟨46, _⟩ => ⟨S65536, .f32⟩
  | .hbm, ⟨47, _⟩ => ⟨S65536x1, .f32⟩
  | .hbm, ⟨48, _⟩ => ⟨S65536x1, .i32⟩
  | .hbm, ⟨49, _⟩ => ⟨S65536x64, .f32⟩
  | .hbm, ⟨50, _⟩ => ⟨S_, .i32⟩
  | .hbm, ⟨51, _⟩ => ⟨S1114112, .i32⟩
  | .hbm, ⟨52, _⟩ => ⟨S1114112, .i1⟩
  | .hbm, ⟨53, _⟩ => ⟨S_, .i32⟩
  | .hbm, ⟨54, _⟩ => ⟨S1114112, .i32⟩
  | .hbm, ⟨55, _⟩ => ⟨S1114112, .i32⟩
  | .hbm, ⟨56, _⟩ => ⟨S1114112, .i32⟩
  | .hbm, ⟨57, _⟩ => ⟨S1114112x1, .i32⟩
  | .hbm, ⟨58, _⟩ => ⟨S1114112x64, .f32⟩
  | .hbm, ⟨59, _⟩ => ⟨S_, .f32⟩
  | .hbm, ⟨60, _⟩ => ⟨S65536x64, .f32⟩
  | .hbm, ⟨61, _⟩ => ⟨S1114112x1, .i32⟩
  | .hbm, ⟨62, _⟩ => ⟨S65536x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S65536x64, .f32⟩
  | .hbm, ⟨69, _⟩ => ⟨S_, .i32⟩
  | .hbm, ⟨70, _⟩ => ⟨S1114112, .i32⟩
  | .hbm, ⟨71, _⟩ => ⟨S1114112, .i1⟩
  | .hbm, ⟨72, _⟩ => ⟨S_, .i32⟩
  | .hbm, ⟨73, _⟩ => ⟨S1114112, .i32⟩
  | .hbm, ⟨74, _⟩ => ⟨S1114112, .i32⟩
  | .hbm, ⟨75, _⟩ => ⟨S1114112, .i32⟩
  | .hbm, ⟨76, _⟩ => ⟨S1114112x1, .i32⟩
  | .hbm, ⟨77, _⟩ => ⟨S1114112x64, .f32⟩
  | .hbm, ⟨78, _⟩ => ⟨S_, .f32⟩
  | .hbm, ⟨79, _⟩ => ⟨S65536x64, .f32⟩
  | .hbm, ⟨80, _⟩ => ⟨S1114112x1, .i32⟩
  | .hbm, ⟨81, _⟩ => ⟨S65536x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S65536x64, .f32⟩
  | .hbm, ⟨88, _⟩ => ⟨S_, .i32⟩
  | .hbm, ⟨89, _⟩ => ⟨S1114112, .i32⟩
  | .hbm, ⟨90, _⟩ => ⟨S1114112, .i1⟩
  | .hbm, ⟨91, _⟩ => ⟨S_, .i32⟩
  | .hbm, ⟨92, _⟩ => ⟨S1114112, .i32⟩
  | .hbm, ⟨93, _⟩ => ⟨S1114112, .i32⟩
  | .hbm, ⟨94, _⟩ => ⟨S1114112, .i32⟩
  | .hbm, ⟨95, _⟩ => ⟨S1114112x1, .i32⟩
  | .hbm, ⟨96, _⟩ => ⟨S1114112x64, .f32⟩
  | .hbm, ⟨97, _⟩ => ⟨S_, .f32⟩
  | .hbm, ⟨98, _⟩ => ⟨S65536x64, .f32⟩
  | .hbm, ⟨99, _⟩ => ⟨S1114112x1, .i32⟩
  | .hbm, ⟨100, _⟩ => ⟨S65536x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S64x64, .f32⟩
  | .local _ .vmem, ⟨0, _⟩ => ⟨S4096x64, .f32⟩
  | .local _ .vmem, ⟨1, _⟩ => ⟨S4096x64, .f32⟩
  | .local _ .vmem, ⟨2, _⟩ => ⟨S64x64, .f32⟩
  | .local _ .vmem, ⟨3, _⟩ => ⟨S4096x1, .f32⟩
  | .local _ .vmem, ⟨4, _⟩ => ⟨S4096x1, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x1, .f32⟩
  | .local _ .vmem, ⟨10, _⟩ => ⟨S4096x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x1, .f32⟩
  | .local _ .vmem, ⟨22, _⟩ => ⟨S4096x1, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | .local _ .vmem, ⟨33, _⟩ => ⟨S4096x1, .f32⟩
  | .local _ .vmem, ⟨34, _⟩ => ⟨S4096x1, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S4096x1, .i32⟩
  | .local _ .vmem, ⟨41, _⟩ => ⟨S4096x1, .i32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S64x64, .f32⟩
  | .local _ .vmem, ⟨46, _⟩ => ⟨S64x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_6 : Ref sig .tc := ⟨.hbm, 69, rfl⟩
abbrev main_v36 : Ref sig .tc := ⟨.hbm, 70, rfl⟩
abbrev main_v37 : Ref sig .tc := ⟨.hbm, 71, rfl⟩
abbrev main_c_7 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_9 : Ref sig .tc := ⟨.hbm, 88, rfl⟩
abbrev main_v52 : Ref sig .tc := ⟨.hbm, 89, rfl⟩
abbrev main_v53 : Ref sig .tc := ⟨.hbm, 90, rfl⟩
abbrev main_c_10 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg10_0 : Ref sig .tc := ⟨.vmem, 44, rfl⟩
abbrev cc3_scratch0 : Ref sig .tc := ⟨.vmem, 45, rfl⟩
abbrev cc3_scratch1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem8_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc3_sem8_0 : DmaSem sig := 42
abbrev cc3_sem9_0 : DmaSem sig := 43
abbrev cc3_sem10_0 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4096x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4096x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![16], ![false]⟩

def k3_cond2 (i : grid3.Coords) : BitVec 1 :=
  let arg0 : BitVec 32 := BitVec.ofNat 32 (i 0).val
  let c15_i32 : BitVec 32 := 15#32
  let v54 : BitVec 1 := Scalar.cmpi .eq arg0 c15_i32
  let v55 : BitVec 32 := Scalar.extui v54
  let c0_i32_28 : BitVec 32 := 0#32
  let v56 : BitVec 1 := Scalar.cmpi .ne v55 c0_i32_28
  v56

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x1 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  shapeCasts_S65536_S65536x1 : S65536.ShapeCasts S65536x1
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  bcast_S_S65536x64 : S_.BroadcastsInDim S65536x64 (![] : Fin 0 → Fin S65536x64.rank)
  shapeCasts_S64_S1x64 : S64.ShapeCasts S1x64
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S4096x64_d1_w32 : S4096x64.Iotas .tc 32 [1]
  natLt_1_32 : 1 < 32
  broadcasts_S64x1_S64x64 : S64x1.Broadcasts S64x64
  broadcasts_S1x64_S64x64 : S1x64.Broadcasts S64x64
  scatter_S65536_S1114112x1_S1114112_n_0_0_1_wf : ScatterDims.WF S65536 S1114112x1 S1114112 [] [0] [0] 1
  dot_S4096x64_S64x64_S4096x64_1_0_0_1_n_n_wf : DotDims.WF S4096x64 S64x64 S4096x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S4096x64_S4096x64_S64x64_0_0_1_1_n_n_wf : DotDims.WF S4096x64 S4096x64 S64x64 [0] [0] [1] [1] [] []
  dot_S4096x64_S4096x1_S64x1_0_0_1_1_n_n_wf : DotDims.WF S4096x64 S4096x1 S64x1 [0] [0] [1] [1] [] []
  dot_S64x64_S64x64_S64x64_1_0_0_1_n_n_wf : DotDims.WF S64x64 S64x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S65536x1.size a
  hwx0_2 : ∀ i : grid0.Coords, EltTy.bits .f32 = 32 ∨ (Rect.block (s := S65536x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S65536x64.size a
  hwx0_3 : ∀ i : grid0.Coords, EltTy.bits .f32 = 32 ∨ (Rect.block (s := S65536x64) S4096x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S65536x64.size a
  hwx1_0 : ∀ i : grid1.Coords, EltTy.bits .f32 = 32 ∨ (Rect.block (s := S65536x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S65536x1.size a
  hwx1_1 : ∀ i : grid1.Coords, EltTy.bits .f32 = 32 ∨ (Rect.block (s := S65536x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4096x64.size a ≤ S65536x64.size a
  hwx1_8 : ∀ i : grid1.Coords, EltTy.bits .f32 = 32 ∨ (Rect.block (s := S65536x64) S4096x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S65536x64.size a
  hwx2_0 : ∀ i : grid2.Coords, EltTy.bits .f32 = 32 ∨ (Rect.block (s := S65536x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S65536x1.size a
  hwx2_1 : ∀ i : grid2.Coords, EltTy.bits .f32 = 32 ∨ (Rect.block (s := S65536x1) S4096x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4096x64.size a ≤ S65536x64.size a
  hwx2_8 : ∀ i : grid2.Coords, EltTy.bits .f32 = 32 ∨ (Rect.block (s := S65536x64) S4096x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S65536x64.size a
  hwx3_0 : ∀ i : grid3.Coords, EltTy.bits .f32 = 32 ∨ (Rect.block (s := S65536x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S65536x1.size a
  hwx3_1 : ∀ i : grid3.Coords, EltTy.bits .f32 = 32 ∨ (Rect.block (s := S65536x1) S4096x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x1.size a ≤ S65536x1.size a
  hwx3_7 : ∀ i : grid3.Coords, EltTy.bits .i32 = 32 ∨ (Rect.block (s := S65536x1) S4096x1.size (cc3_transform_7 i) (hinb3_7 i)).WholeWords (EltTy.packing .i32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x64.size a ≤ S64x64.size a
  hwx3_10 : ∀ i : grid3.Coords, EltTy.bits .f32 = 32 ∨ (Rect.block (s := S64x64) S64x64.size (cc3_transform_10 i) (hinb3_10 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S4096x1_S64x1_0_0_1_1_n_n : DotDims S4096x64 S4096x1 S64x1 where
  lhsContracting := [0]
  rhsContracting := [0]
  lhsNonContracting := [1]
  rhsNonContracting := [1]
  lhsBatch := []
  rhsBatch := []
  wf := dot_S4096x64_S4096x1_S64x1_0_0_1_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S4096x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v45) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v51) S4096x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v61) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v18) S4096x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg21) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v67) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v68) S64x64.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond2 i == 1#1) | ⟨_ + 11, h⟩ => absurd h (Nat.not_lt.2 (Nat.le_add_left _ _))

class Facts : Prop extends Facts₀ where

variable [Facts]
-- ==== ReferenceIdeal.lean ====
abbrev S65536x64 : Shape := ⟨2, ![65536, 64]⟩
abbrev S2x1048576 : Shape := ⟨2, ![2, 1048576]⟩
abbrev S65536 : Shape := ⟨1, ![65536]⟩
abbrev S64x64 : Shape := ⟨2, ![64, 64]⟩
abbrev S64 : Shape := ⟨1, ![64]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x64 : Shape := ⟨2, ![1114112, 64]⟩
abbrev S1x64 : Shape := ⟨2, ![1, 64]⟩
abbrev S65536x1 : Shape := ⟨2, ![65536, 1]⟩
abbrev S64x1 : Shape := ⟨2, ![64, 1]⟩

abbrev nBuf : Space → Nat
  | .hbm => 203
  | .vmem => 0
  | .smem => 0
  | _ => 0

abbrev hbmTy0_0 (i : Nat) : BufTy := match i % 128 with
  | 0 => ⟨S65536x64, .f32⟩
  | 1 => ⟨S2x1048576, .i32⟩
  | 2 => ⟨S65536, .i32⟩
  | 3 => ⟨S64x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x64, .f32⟩
  | 22 => ⟨S64, .f32⟩
  | 23 => ⟨S65536, .i32⟩
  | 24 => ⟨S1x1048576, .i32⟩
  | 25 => ⟨S1048576, .i32⟩
  | 26 => ⟨S1114112, .i32⟩
  | 27 => ⟨S1x1048576, .i32⟩
  | 28 => ⟨S1048576, .i32⟩
  | 29 => ⟨S1114112, .i32⟩
  | 30 => ⟨S_, .f32⟩
  | 31 => ⟨S1114112, .f32⟩
  | 32 => ⟨S_, .f32⟩
  | 33 => ⟨S65536, .f32⟩
  | 34 => ⟨S1114112x1, .i32⟩
  | 35 => ⟨S65536, .f32⟩
  | 36 => ⟨S_, .f32⟩
  | 37 => ⟨S65536, .f32⟩
  | 38 => ⟨S65536, .i1⟩
  | 39 => ⟨S_, .f32⟩
  | 40 => ⟨S65536, .f32⟩
  | 41 => ⟨S65536, .f32⟩
  | 42 => ⟨S65536, .f32⟩
  | 43 => ⟨S_, .f32⟩
  | 44 => ⟨S_, .f32⟩
  | 45 => ⟨S65536, .f32⟩
  | 46 => ⟨S65536, .f32⟩
  | 47 => ⟨S_, .i32⟩
  | 48 => ⟨S1114112, .i32⟩
  | 49 => ⟨S1114112, .i1⟩
  | 50 => ⟨S_, .i32⟩
  | 51 => ⟨S1114112, .i32⟩
  | 52 => ⟨S1114112, .i32⟩
  | 53 => ⟨S1114112, .i32⟩
  | 54 => ⟨S1114112x1, .i32⟩
  | 55 => ⟨S1114112, .f32⟩
  | 56 => ⟨S_, .i32⟩
  | 57 => ⟨S1114112, .i32⟩
  | 58 => ⟨S1114112, .i1⟩
  | 59 => ⟨S_, .i32⟩
  | 60 => ⟨S1114112, .i32⟩
  | 61 => ⟨S1114112, .i32⟩
  | 62 => ⟨S1114112, .i32⟩
  | 63 => ⟨S1114112x1, .i32⟩
  | 64 => ⟨S1114112, .f32⟩
  | 65 => ⟨S1114112, .f32⟩
  | 66 => ⟨S65536x64, .f32⟩
  | 67 => ⟨S_, .i32⟩
  | 68 => ⟨S1114112, .i32⟩
  | 69 => ⟨S1114112, .i1⟩
  | 70 => ⟨S_, .i32⟩
  | 71 => ⟨S1114112, .i32⟩
  | 72 => ⟨S1114112, .i32⟩
  | 73 => ⟨S1114112, .i32⟩
  | 74 => ⟨S1114112x1, .i32⟩
  | 75 => ⟨S1114112x64, .f32⟩
  | 76 => ⟨S1114112x1, .f32⟩
  | 77 => ⟨S1114112x64, .f32⟩
  | 78 => ⟨S1114112x64, .f32⟩
  | 79 => ⟨S_, .f32⟩
  | 80 => ⟨S65536x64, .f32⟩
  | 81 => ⟨S1114112x1, .i32⟩
  | 82 => ⟨S65536x64, .f32⟩
  | 83 => ⟨S1x64, .f32⟩
  | 84 => ⟨S65536x64, .f32⟩
  | 85 => ⟨S65536x64, .f32⟩
  | 86 => ⟨S1x64, .f32⟩
  | 87 => ⟨S65536x64, .f32⟩
  | 88 => ⟨S65536x64, .f32⟩
  | 89 => ⟨S_, .f32⟩
  | 90 => ⟨S64, .f32⟩
  | 91 => ⟨S64, .f32⟩
  | 92 => ⟨S64, .f32⟩
  | 93 => ⟨S1x64, .f32⟩
  | 94 => ⟨S65536x64, .f32⟩
  | 95 => ⟨S65536x64, .f32⟩
  | 96 => ⟨S1x64, .f32⟩
  | 97 => ⟨S65536x64, .f32⟩
  | 98 => ⟨S65536x64, .f32⟩
  | 99 => ⟨S1x64, .f32⟩
  | 100 => ⟨S65536x64, .f32⟩
  | 101 => ⟨S65536x64, .f32⟩
  | 102 => ⟨S_, .f32⟩
  | 103 => ⟨S65536x64, .f32⟩
  | 104 => ⟨S65536x64, .f32⟩
  | 105 => ⟨S65536x64, .f32⟩
  | 106 => ⟨S_, .i32⟩
  | 107 => ⟨S1114112, .i32⟩
  | 108 => ⟨S1114112, .i1⟩
  | 109 => ⟨S_, .i32⟩
  | 110 => ⟨S1114112, .i32⟩
  | 111 => ⟨S1114112, .i32⟩
  | 112 => ⟨S1114112, .i32⟩
  | 113 => ⟨S1114112x1, .i32⟩
  | 114 => ⟨S1114112x64, .f32⟩
  | 115 => ⟨S1114112x1, .f32⟩
  | 116 => ⟨S1114112x64, .f32⟩
  | 117 => ⟨S1114112x64, .f32⟩
  | 118 => ⟨S_, .f32⟩
  | 119 => ⟨S65536x64, .f32⟩
  | 120 => ⟨S1114112x1, .i32⟩
  | 121 => ⟨S65536x64, .f32⟩
  | 122 => ⟨S1x64, .f32⟩
  | 123 => ⟨S65536x64, .f32⟩
  | 124 => ⟨S65536x64, .f32⟩
  | 125 => ⟨S1x64, .f32⟩
  | 126 => ⟨S65536x64, .f32⟩
  | 127 => ⟨S65536x64, .f32⟩
  | _ => ⟨S65536x64, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S65536x64, .f32⟩
  | 6 => ⟨S65536x64, .f32⟩
  | 7 => ⟨S1x64, .f32⟩
  | 8 => ⟨S65536x64, .f32⟩
  | 9 => ⟨S65536x64, .f32⟩
  | 10 => ⟨S1x64, .f32⟩
  | 11 => ⟨S65536x64, .f32⟩
  | 12 => ⟨S65536x64, .f32⟩
  | 13 => ⟨S_, .f32⟩
  | 14 => ⟨S65536x64, .f32⟩
  | 15 => ⟨S65536x64, .f32⟩
  | 16 => ⟨S65536x64, .f32⟩
  | 17 => ⟨S_, .i32⟩
  | 18 => ⟨S1114112, .i32⟩
  | 19 => ⟨S1114112, .i1⟩
  | 20 => ⟨S_, .i32⟩
  | 21 => ⟨S1114112, .i32⟩
  | 22 => ⟨S1114112, .i32⟩
  | 23 => ⟨S1114112, .i32⟩
  | 24 => ⟨S1114112x1, .i32⟩
  | 25 => ⟨S1114112x64, .f32⟩
  | 26 => ⟨S1114112x1, .f32⟩
  | 27 => ⟨S1114112x64, .f32⟩
  | 28 => ⟨S1114112x64, .f32⟩
  | 29 => ⟨S_, .f32⟩
  | 30 => ⟨S65536x64, .f32⟩
  | 31 => ⟨S1114112x1, .i32⟩
  | 32 => ⟨S65536x64, .f32⟩
  | 33 => ⟨S1x64, .f32⟩
  | 34 => ⟨S65536x64, .f32⟩
  | 35 => ⟨S65536x64, .f32⟩
  | 36 => ⟨S1x64, .f32⟩
  | 37 => ⟨S65536x64, .f32⟩
  | 38 => ⟨S65536x64, .f32⟩
  | 39 => ⟨S_, .f32⟩
  | 40 => ⟨S64, .f32⟩
  | 41 => ⟨S64, .f32⟩
  | 42 => ⟨S64, .f32⟩
  | 43 => ⟨S1x64, .f32⟩
  | 44 => ⟨S65536x64, .f32⟩
  | 45 => ⟨S65536x64, .f32⟩
  | 46 => ⟨S1x64, .f32⟩
  | 47 => ⟨S65536x64, .f32⟩
  | 48 => ⟨S65536x64, .f32⟩
  | 49 => ⟨S1x64, .f32⟩
  | 50 => ⟨S65536x64, .f32⟩
  | 51 => ⟨S65536x64, .f32⟩
  | 52 => ⟨S_, .f32⟩
  | 53 => ⟨S65536x64, .f32⟩
  | 54 => ⟨S65536x64, .f32⟩
  | 55 => ⟨S_, .f32⟩
  | 56 => ⟨S64x64, .f32⟩
  | 57 => ⟨S65536x1, .i32⟩
  | 58 => ⟨S64x64, .f32⟩
  | 59 => ⟨S_, .f32⟩
  | 60 => ⟨S65536, .f32⟩
  | 61 => ⟨S_, .f32⟩
  | 62 => ⟨S64, .f32⟩
  | 63 => ⟨S65536x1, .i32⟩
  | 64 => ⟨S64, .f32⟩
  | 65 => ⟨S_, .f32⟩
  | 66 => ⟨S64, .f32⟩
  | 67 => ⟨S64, .f32⟩
  | 68 => ⟨S64x1, .f32⟩
  | 69 => ⟨S64x64, .f32⟩
  | 70 => ⟨S64x64, .f32⟩
  | 71 => ⟨S64x64, .f32⟩
  | 72 => ⟨S1x64, .f32⟩
  | 73 => ⟨S64x64, .f32⟩
  | 74 => ⟨S64x64, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_c_8 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_10 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call1_cst : Ref sig .tc := ⟨.hbm, 102, rfl⟩
abbrev main_call1_v0 : Ref sig .tc := ⟨.hbm, 103, rfl⟩
abbrev main_v64 : Ref sig .tc := ⟨.hbm, 104, rfl⟩
abbrev main_v65 : Ref sig .tc := ⟨.hbm, 105, rfl⟩
abbrev main_c_11 : Ref sig .tc := ⟨.hbm, 106, rfl⟩
abbrev main_v66 : Ref sig .tc := ⟨.hbm, 107, rfl⟩
abbrev main_v67 : Ref sig .tc := ⟨.hbm, 108, rfl⟩
abbrev main_c_12 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_13 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_14 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call2_cst : Ref sig .tc := ⟨.hbm, 141, rfl⟩
abbrev main_call2_v0 : Ref sig .tc := ⟨.hbm, 142, rfl⟩
abbrev main_v97 : Ref sig .tc := ⟨.hbm, 143, rfl⟩
abbrev main_v98 : Ref sig .tc := ⟨.hbm, 144, rfl⟩
abbrev main_c_15 : Ref sig .tc := ⟨.hbm, 145, rfl⟩
abbrev main_v99 : Ref sig .tc := ⟨.hbm, 146, rfl⟩
abbrev main_v100 : Ref sig .tc := ⟨.hbm, 147, rfl⟩
abbrev main_c_16 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_17 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_18 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_call3_cst : Ref sig .tc := ⟨.hbm, 180, rfl⟩
abbrev main_call3_v0 : Ref sig .tc := ⟨.hbm, 181, rfl⟩
abbrev main_v130 : Ref sig .tc := ⟨.hbm, 182, rfl⟩
abbrev main_cst_19 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_20 : Ref sig .tc := ⟨.hbm, 187, rfl⟩
abbrev main_v134 : Ref sig .tc := ⟨.hbm, 188, rfl⟩
abbrev main_cst_21 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_22 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S64 : S_.BroadcastsInDim S64 (![] : Fin 0 → Fin S64.rank)
  bcast_S_S64x64 : S_.BroadcastsInDim S64x64 (![] : Fin 0 → Fin S64x64.rank)
  bcast_S65536_S65536x1_0 : S65536.BroadcastsInDim S65536x1 (![0] : Fin 1 → Fin S65536x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x64_S64x64_S65536x64_1_0_0_1_n_n_wf : DotDims.WF S65536x64 S64x64 S65536x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  scatter_S64x64_S65536x1_S65536x64_1_0_0_1_wf : ScatterDims.WF S64x64 S65536x1 S65536x64 [1] [0] [0] 1
  scatter_S64_S65536x1_S65536_n_0_0_1_wf : ScatterDims.WF S64 S65536x1 S65536 [] [0] [0] 1
  dot_S64x64_S64x64_S64x64_1_0_0_1_n_n_wf : DotDims.WF S64x64 S64x64 S64x64 [1] [0] [0] [1] [] []

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def scatter_S64x64_S65536x1_S65536x64_1_0_0_1 : ScatterDims S64x64 S65536x1 S65536x64 where
  updateWindowDims := [1]
  insertedWindowDims := [0]
  scatterDimsToOperandDims := [0]
  indexVectorDim := 1
  wf := scatter_S64x64_S65536x1_S65536x64_1_0_0_1_wf
def scatter_S64_S65536x1_S65536_n_0_0_1 : ScatterDims S64 S65536x1 S65536 where
  updateWindowDims := []
  insertedWindowDims := [0]
  scatterDimsToOperandDims := [0]
  indexVectorDim := 1
  wf := scatter_S64_S65536x1_S65536_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf

class Facts : Prop extends Facts₀ where

variable [Facts]
-- ==== Proof.KI.Reg0.lean ====
import proofs.«431363_j22273700397650_3_alg».proof.Proof.Gen.KernelIdeal.Launch
import proofs.«431363_j22273700397650_3_alg».proof.Proof.Gen.KernelIdeal.Skeleton
import proofs.«431363_j22273700397650_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4096x64 := Rect.unit (s := S4096x64) ![0, 0] S4096x64.size inb_S4096x64_S4096x64_0_0
abbrev r0_1 : Rect S64x64 := Rect.unit (s := S64x64) ![0, 0] S64x64.size inb_S64x64_S64x64_0_0
abbrev r0_2 : Rect S4096x1 := Rect.unit (s := S4096x1) ![0, 0] S4096x1.size inb_S4096x1_S4096x1_0_0

def out0_3 (x0 : Vec F S4096x64 .f32) (x1 : Vec F S64x64 .f32) (x2 : Vec F S4096x1 .f32) : Vec F S4096x64 .f32 :=
  View.canon [⟨r0_0, k0_pay1 (View.ld x0 r0_0) (View.ld x1 r0_1) (View.ld x2 r0_2)⟩]

theorem cover0_3 (p0 : Vec F S4096x64 .f32) (y : S4096x64.Idx) :
    ∃ pc ∈ ([⟨r0_0, p0⟩] : List (View.Piece (Elt F) S4096x64 .f32)), y ∈ pc.1.set :=
  View.cover_of_tiled [⟨r0_0, p0⟩] S4096x64.size (by rfl) y

set_option maxHeartbeats 1000000 in
theorem sound_kernel0 (c : Dev nD) (E : Set ℕ) (i : grid0.Coords)
    (arg1 : Memref sig .tc .vmem S4096x64 .f32) (harg1 : arg1.IsWhole) (arg2 : Memref sig .tc .vmem S64x64 .f32) (harg2 : arg2.IsWhole)
    (arg3 : Memref sig .tc .vmem S4096x1 .f32) (harg3 : arg3.IsWhole) (arg4 : Memref sig .tc .vmem S4096x64 .f32) (harg4 : arg4.IsWhole)
    (x0 : Vec F S4096x64 .f32) (x1 : Vec F S64x64 .f32) (x2 : Vec F S4096x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_scale_kernel i arg1 harg1 arg2 harg2 arg3 harg3 arg4 harg4) K := by
  simp only [cc0__proj_scale_kernel_eq_skeleton]; unfold cc0__proj_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
import proofs.«431363_j22273700397650_3_alg».proof.Proof.Gen.KernelIdeal.Launch
import proofs.«431363_j22273700397650_3_alg».proof.Proof.Gen.KernelIdeal.Skeleton
import proofs.«431363_j22273700397650_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rect1_0 : Rect S4096x64 := Rect.unit (s := S4096x64) ![0, 0] S4096x64.size inb_S4096x64_S4096x64_0_0
abbrev rect1_1 : Rect S4096x1 := Rect.unit (s := S4096x1) ![0, 0] S4096x1.size inb_S4096x1_S4096x1_0_0
abbrev rect1_2 : Rect S1x64 := Rect.unit (s := S1x64) ![0, 0] S1x64.size inb_S1x64_S1x64_0_0
abbrev rect1_3 : Rect S64x64 := Rect.unit (s := S64x64) ![0, 0] S64x64.size inb_S64x64_S64x64_0_0

def out1_8 (x0 : Vec F S4096x64 .f32) (x1 : Vec F S4096x1 .f32) (x2 : Vec F S1x64 .f32) (x3 : Vec F S1x64 .f32) (x4 : Vec F S1x64 .f32) (x5 : Vec F S1x64 .f32) (x6 : Vec F S1x64 .f32) (x7 : Vec F S64x64 .f32) : Vec F S4096x64 .f32 :=
  View.canon [⟨rect1_0, k1_pay1 (k1_pay2 (View.ld x0 rect1_0) (View.ld x1 rect1_1) (View.ld x2 rect1_2) (View.ld x6 rect1_2) (View.ld x5 rect1_2) (View.ld x3 rect1_2) (View.ld x4 rect1_2) (View.ld x7 rect1_3)) (k1_pay3 (View.ld x1 rect1_1))⟩]

theorem cover1_8 (p0 : Vec F S4096x64 .f32) (y : S4096x64.Idx) :
    ∃ pc ∈ ([⟨rect1_0, p0⟩] : List (View.Piece (Elt F) S4096x64 .f32)), y ∈ pc.1.set :=
  View.cover_of_tiled [⟨rect1_0, p0⟩] S4096x64.size (by rfl) y

set_option maxHeartbeats 4000000 in
theorem sound_kernel1 (c : Dev nD) (E : Set ℕ) (i : grid1.Coords) (arg1 : Memref sig .tc .vmem S4096x64 .f32) (harg1 : arg1.IsWhole) (arg2 : Memref sig .tc .vmem S4096x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S4096x64 .f32) (harg9 : arg9.IsWhole)
    (x0 : Vec F S4096x64 .f32) (x1 : Vec F S4096x1 .f32) (x2 : Vec F S1x64 .f32) (x3 : Vec F S1x64 .f32) (x4 : Vec F S1x64 .f32) (x5 : Vec F S1x64 .f32) (x6 : Vec F S1x64 .f32) (x7 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__bn_relu_proj_kernel i arg1 harg1 arg2 harg2 arg3 harg3 arg4 harg4 arg5 harg5 arg6 harg6 arg7 harg7 arg8 harg8 arg9 harg9) K := by
  simp only [cc1__bn_relu_proj_kernel_eq_skeleton]; unfold cc1__bn_relu_proj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  iframe H0 H1 H2 H3 H4 H5 H6 H7
  isplitl [H8]; · iexists _; iexact H8
  iintro ⟨H0, H1, H2, H3, H4, H5, H6, H7, H8⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Reg2.lean ====
import proofs.«431363_j22273700397650_3_alg».proof.Proof.Gen.KernelIdeal.Launch
import proofs.«431363_j22273700397650_3_alg».proof.Proof.Gen.KernelIdeal.Skeleton
import proofs.«431363_j22273700397650_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2_0 : Rect S4096x64 := Rect.unit (s := S4096x64) ![0, 0] S4096x64.size inb_S4096x64_S4096x64_0_0
abbrev rect2_1 : Rect S4096x1 := Rect.unit (s := S4096x1) ![0, 0] S4096x1.size inb_S4096x1_S4096x1_0_0
abbrev rect2_2 : Rect S1x64 := Rect.unit (s := S1x64) ![0, 0] S1x64.size inb_S1x64_S1x64_0_0
abbrev rect2_3 : Rect S64x64 := Rect.unit (s := S64x64) ![0, 0] S64x64.size inb_S64x64_S64x64_0_0

def out2_8 (x0 : Vec F S4096x64 .f32) (x1 : Vec F S4096x1 .f32) (x2 : Vec F S1x64 .f32) (x3 : Vec F S1x64 .f32) (x4 : Vec F S1x64 .f32) (x5 : Vec F S1x64 .f32) (x6 : Vec F S1x64 .f32) (x7 : Vec F S64x64 .f32) : Vec F S4096x64 .f32 :=
  View.canon [⟨rect2_0, k2_pay1 (k2_pay2 (View.ld x0 rect2_0) (View.ld x1 rect2_1) (View.ld x2 rect2_2) (View.ld x6 rect2_2) (View.ld x5 rect2_2) (View.ld x3 rect2_2) (View.ld x4 rect2_2) (View.ld x7 rect2_3)) (k2_pay3 (View.ld x1 rect2_1))⟩]

theorem cover2_8 (p0 : Vec F S4096x64 .f32) (y : S4096x64.Idx) :
    ∃ pc ∈ ([⟨rect2_0, p0⟩] : List (View.Piece (Elt F) S4096x64 .f32)), y ∈ pc.1.set :=
  View.cover_of_tiled [⟨rect2_0, p0⟩] S4096x64.size (by rfl) y

set_option maxHeartbeats 4000000 in
theorem sound_kernel2 (c : Dev nD) (E : Set ℕ) (i : grid2.Coords) (arg1 : Memref sig .tc .vmem S4096x64 .f32) (harg1 : arg1.IsWhole) (arg2 : Memref sig .tc .vmem S4096x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S4096x64 .f32) (harg9 : arg9.IsWhole)
    (x0 : Vec F S4096x64 .f32) (x1 : Vec F S4096x1 .f32) (x2 : Vec F S1x64 .f32) (x3 : Vec F S1x64 .f32) (x4 : Vec F S1x64 .f32) (x5 : Vec F S1x64 .f32) (x6 : Vec F S1x64 .f32) (x7 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__bn_relu_proj_kernel i arg1 harg1 arg2 harg2 arg3 harg3 arg4 harg4 arg5 harg5 arg6 harg6 arg7 harg7 arg8 harg8 arg9 harg9) K := by
  simp only [cc2__bn_relu_proj_kernel_eq_skeleton]; unfold cc2__bn_relu_proj_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  iframe H0 H1 H2 H3 H4 H5 H6 H7
  isplitl [H8]; · iexists _; iexact H8
  iintro ⟨H0, H1, H2, H3, H4, H5, H6, H7, H8⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Reg3.lean ====
import proofs.«431363_j22273700397650_3_alg».proof.Proof.Gen.KernelIdeal.Launch
import proofs.«431363_j22273700397650_3_alg».proof.Proof.Gen.KernelIdeal.Skeleton
import proofs.«431363_j22273700397650_3_alg».proof.Proof.Gen.KernelIdeal.Points
import proofs.«431363_j22273700397650_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S4096x64 := Rect.unit (s := S4096x64) ![0, 0] S4096x64.size inb_S4096x64_S4096x64_0_0
abbrev r3_b : Rect S4096x1 := Rect.unit (s := S4096x1) ![0, 0] S4096x1.size inb_S4096x1_S4096x1_0_0
abbrev r3_c : Rect S1x64 := Rect.unit (s := S1x64) ![0, 0] S1x64.size inb_S1x64_S1x64_0_0
abbrev r3_d : Rect S64x64 := Rect.unit (s := S64x64) ![0, 0] S64x64.size inb_S64x64_S64x64_0_0
abbrev r3_e : Rect S64x1 := Rect.unit (s := S64x1) ![0, 0] S64x1.size inb_S64x1_S64x1_0_0

abbrev iota3 : IVec S4096x64 32 := iota .tc S4096x64 32 [1] iota_S4096x64_d1_w32

def sc0Step (s0 : Vec F S64x64 .f32) (x0 : Vec F S4096x64 .f32) (x1 : Vec F S4096x1 .f32) (x2 x3 x4 x5 x6 : Vec F S1x64 .f32)
    (x7 : Vec F S4096x1 .i32) : Vec F S64x64 .f32 :=
  View.canon [⟨r3_d, k3_pay2 (k3_pay7 (View.ld x0 r3_a) (View.ld x1 r3_b) (View.ld x2 r3_c) (View.ld x6 r3_c) (View.ld x5 r3_c) (View.ld x3 r3_c) (View.ld x4 r3_c))
    iota3 (k3_pay8 (F := F) (View.ld x7 r3_b)) (View.ld s0 r3_d)⟩]

def sc1Step (s1 : Vec F S64x1 .f32) (x7 : Vec F S4096x1 .i32) : Vec F S64x1 .f32 :=
  View.canon [⟨r3_e, k3_pay3 iota3 (k3_pay8 (F := F) (View.ld x7 r3_b)) (View.ld s1 r3_e)⟩]

def sc0Zero : Vec F S64x64 .f32 := View.canon [⟨r3_d, k3_pay5 (F := F)⟩]
def sc1Zero : Vec F S64x1 .f32 := View.canon [⟨r3_e, k3_pay6 (F := F)⟩]

def out3_10 (s0 : Vec F S64x64 .f32) (s1 : Vec F S64x1 .f32) (x8 : Vec F S64x64 .f32) (x9 : Vec F S1x64 .f32) : Vec F S64x64 .f32 :=
  View.canon [⟨r3_d, k3_pay4 (View.ld s0 r3_d) (View.ld s1 r3_e) (View.ld x8 r3_d) (View.ld x9 r3_c)⟩]

def pt3 (n : ℕ) : Fin cfg3.N := ⟨min n 15, by have := N_3; show min n 15 < grid3.N; omega⟩

def sc0After (c : Dev nD) : ℕ → Vec F S64x64 .f32
  | 0 => sc0Step sc0Zero (iblk3 V c 0 (pt3 0)) (iblk3 V c 1 (pt3 0)) (iblk3 V c 2 (pt3 0)) (iblk3 V c 3 (pt3 0)) (iblk3 V c 4 (pt3 0))
      (iblk3 V c 5 (pt3 0)) (iblk3 V c 6 (pt3 0)) (iblk3 V c 7 (pt3 0))
  | n + 1 => sc0Step (sc0After c n) (iblk3 V c 0 (pt3 (n + 1))) (iblk3 V c 1 (pt3 (n + 1))) (iblk3 V c 2 (pt3 (n + 1))) (iblk3 V c 3 (pt3 (n + 1)))
      (iblk3 V c 4 (pt3 (n + 1))) (iblk3 V c 5 (pt3 (n + 1))) (iblk3 V c 6 (pt3 (n + 1))) (iblk3 V c 7 (pt3 (n + 1)))

def sc1After (c : Dev nD) : ℕ → Vec F S64x1 .f32
  | 0 => sc1Step sc1Zero (iblk3 V c 7 (pt3 0))
  | n + 1 => sc1Step (sc1After c n) (iblk3 V c 7 (pt3 (n + 1)))

abbrev scM3_0 : Memref sig .tc .vmem S64x64 .f32 := Memref.whole cc3_scratch0
abbrev scM3_1 : Memref sig .tc .vmem S64x1 .f32 := Memref.whole cc3_scratch1

def Phi3 (c : Dev nD) (n : ℕ) : sProp 𝕄 :=
  iprop((∃ d0, ⌜0 < n → d0 = sc0After V c (n - 1)⌝ ∗ owns (c : Thread nD τ) scM3_0 fullShare d0)
    ∗ (∃ d1, ⌜0 < n → d1 = sc1After V c (n - 1)⌝ ∗ owns (c : Thread nD τ) scM3_1 fullShare d1)
    ∗ Pipeline.scopedRestBut (Ix := Unit) (Name := ℕ) (U := UR sig nD τ) (Lvl := ℕ) (Val := Elt F) spec3 c [cc3_scratch0, cc3_scratch1]
    ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (sc0After V c t.val) (sc1After V c t.val) (iblk3 V c 8 t) (iblk3 V c 9 t)
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) :
    (dat3 V c).after 10 t = out3_10 (sc0After V c t.val) (sc1After V c t.val) (iblk3 V c 8 t) (iblk3 V c 9 t) := by dsimp only [dat3]

abbrev cond3_1 (i : grid3.Coords) : Prop :=
  (Scalar.cmpi .ne (Scalar.extui (Scalar.cmpi .eq (BitVec.ofNat 32 (i 0).val) 0#32)) 0#32) = 1#1
theorem hcond3_1 : ∀ t : Fin cfg3.N, cond3_1 (grid3.coords t) ↔ t.val = 0 :=
  (by decide +kernel : ∀ t : Fin grid3.N, cond3_1 (grid3.coords t) ↔ t.val = 0)
abbrev cond3_2 (i : grid3.Coords) : Prop := k3_cond2 i = 1#1
theorem hcond3_2 : ∀ t : Fin cfg3.N, cond3_2 (grid3.coords t) ↔ t.val = 15 :=
  (by decide +kernel : ∀ t : Fin grid3.N, cond3_2 (grid3.coords t) ↔ t.val = 15)

theorem cover3_d (p0 : Vec F S64x64 .f32) (y : S64x64.Idx) :
    ∃ pc ∈ ([⟨r3_d, p0⟩] : List (View.Piece (Elt F) S64x64 .f32)), y ∈ pc.1.set :=
  View.cover_of_tiled [⟨r3_d, p0⟩] S64x64.size (by rfl) y
theorem cover3_e (p0 : Vec F S64x1 .f32) (y : S64x1.Idx) :
    ∃ pc ∈ ([⟨r3_e, p0⟩] : List (View.Piece (Elt F) S64x1 .f32)), y ∈ pc.1.set :=
  View.cover_of_tiled [⟨r3_e, p0⟩] S64x1.size (by rfl) y

theorem hz3 : (![0, 0] : Fin 2 → ℕ) = fun _ => 0 := by funext a; fin_cases a <;> rfl

theorem cover3_d' (p0 : Vec F S64x64 .f32) (L : List (View.Piece (Elt F) S64x64 .f32)) (y : S64x64.Idx) :
    ∃ pc ∈ ((⟨r3_d, p0⟩ : View.Piece (Elt F) S64x64 .f32) :: L), y ∈ pc.1.set := by
  obtain ⟨pc, hpc, hy⟩ := cover3_d p0 y
  exact ⟨pc, List.mem_cons.mpr (Or.inl (List.mem_singleton.mp hpc)), hy⟩
theorem cover3_e' (p0 : Vec F S64x1 .f32) (L : List (View.Piece (Elt F) S64x1 .f32)) (y : S64x1.Idx) :
    ∃ pc ∈ ((⟨r3_e, p0⟩ : View.Piece (Elt F) S64x1 .f32) :: L), y ∈ pc.1.set := by
  obtain ⟨pc, hpc, hy⟩ := cover3_e p0 y
  exact ⟨pc, List.mem_cons.mpr (Or.inl (List.mem_singleton.mp hpc)), hy⟩

set_option maxHeartbeats 4000000 in
theorem sound_kernel3_mid (c : Dev nD) (E : Set ℕ) (i : grid3.Coords) (hc1 : ¬cond3_1 i) (hc2 : ¬cond3_2 i)
    (arg1 : Memref sig .tc .vmem S4096x64 .f32) (harg1 : arg1.IsWhole) (arg2 : Memref sig .tc .vmem S4096x1 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S4096x1 .i32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S64x64 .f32) (harg11 : arg11.IsWhole) (arg12 : Memref sig .tc .vmem S64x64 .f32) (harg12 : arg12.IsWhole)
    (arg13 : Memref sig .tc .vmem S64x1 .f32) (harg13 : arg13.IsWhole)
    (x0 : Vec F S4096x64 .f32) (x1 : Vec F S4096x1 .f32) (x2 x3 x4 x5 x6 : Vec F S1x64 .f32) (x7 : Vec F S4096x1 .i32)
    (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
            ∗ owns (c : Thread nD τ) arg12 fullShare (sc0Step s0 x0 x1 x2 x3 x4 x5 x6 x7) ∗ owns (c : Thread nD τ) arg13 fullShare (sc1Step s1 x7)) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8 arg9 harg9 arg10 harg10 arg11 harg11 arg12 harg12 arg13 harg13) K := by
  simp only [cc3__pool_kernel_eq_skeleton]; unfold cc3__pool_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, HS0⟩, ⟨%g1, %hg1, HS1⟩, Hk⟩
  subst hf0 hf1 hf2 hf3 hf4 hf5 hf6 hf7 hg0 hg1
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [HS0]
  · iexists _; isplitr
    swap; · iexact HS0
    ipureintro
    exact View.read_writes_eq_canon _ _ _ (cover3_d _)
  iexists _; isplitr
  swap; · iexact HS1
  ipureintro
  exact View.read_writes_eq_canon _ _ _ (cover3_e _)

set_option maxHeartbeats 4000000 in
theorem sound_kernel3_first (c : Dev nD) (E : Set ℕ) (i : grid3.Coords) (hc1 : cond3_1 i) (hc2 : ¬cond3_2 i)
    (arg1 : Memref sig .tc .vmem S4096x64 .f32) (harg1 : arg1.IsWhole) (arg2 : Memref sig .tc .vmem S4096x1 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S4096x1 .i32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S64x64 .f32) (harg11 : arg11.IsWhole) (arg12 : Memref sig .tc .vmem S64x64 .f32) (harg12 : arg12.IsWhole)
    (arg13 : Memref sig .tc .vmem S64x1 .f32) (harg13 : arg13.IsWhole)
    (x0 : Vec F S4096x64 .f32) (x1 : Vec F S4096x1 .f32) (x2 x3 x4 x5 x6 : Vec F S1x64 .f32) (x7 : Vec F S4096x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
            ∗ owns (c : Thread nD τ) arg12 fullShare (sc0Step sc0Zero x0 x1 x2 x3 x4 x5 x6 x7) ∗ owns (c : Thread nD τ) arg13 fullShare (sc1Step sc1Zero x7)) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8 arg9 harg9 arg10 harg10 arg11 harg11 arg12 harg12 arg13 harg13) K := by
  simp only [cc3__pool_kernel_eq_skeleton]; unfold cc3__pool_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d0, %g0, -, HS0⟩, ⟨%d1, %g1, -, HS1⟩, Hk⟩
  subst hf0 hf1 hf2 hf3 hf4 hf5 hf6 hf7
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [HS0]
  · iexists _; isplitr
    swap; · iexact HS0
    ipureintro
    sl_unfold_run_names
    unfold sc0Step sc0Zero
    rw [View.read_writes_eq_canon _ _ _ (cover3_d' _ _), View.readCov_eq_canon_ld _ _ _ (cover3_d _)]
    first
      | (simp only [View.canon_cons_unit_zero (S := S64x64) hz3, View.canon_unit_zero (S := S64x64) hz3]; try rfl)
      | (rw [View.canon_cons_unit_zero (S := S64x64) hz3, View.canon_unit_zero (S := S64x64) hz3 _ (k3_pay2 _ _ _ _)]; try rfl)
  iexists _; isplitr
  swap; · iexact HS1
  ipureintro
  sl_unfold_run_names
  unfold sc1Step sc1Zero
  rw [View.read_writes_eq_canon _ _ _ (cover3_e' _ _), View.readCov_eq_canon_ld _ _ _ (cover3_e _)]
  first
    | (simp only [View.canon_cons_unit_zero (S := S64x1) hz3, View.canon_unit_zero (S := S64x1) hz3]; try rfl)
    | (rw [View.canon_cons_unit_zero (S := S64x1) hz3, View.canon_unit_zero (S := S64x1) hz3 _ (k3_pay3 _ _ _)]; try rfl)

set_option maxHeartbeats 4000000 in
theorem sound_kernel3_last (c : Dev nD) (E : Set ℕ) (i : grid3.Coords) (hc1 : ¬cond3_1 i) (hc2 : cond3_2 i)
    (arg1 : Memref sig .tc .vmem S4096x64 .f32) (harg1 : arg1.IsWhole) (arg2 : Memref sig .tc .vmem S4096x1 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S4096x1 .i32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S64x64 .f32) (harg11 : arg11.IsWhole) (arg12 : Memref sig .tc .vmem S64x64 .f32) (harg12 : arg12.IsWhole)
    (arg13 : Memref sig .tc .vmem S64x1 .f32) (harg13 : arg13.IsWhole)
    (x0 : Vec F S4096x64 .f32) (x1 : Vec F S4096x1 .f32) (x2 x3 x4 x5 x6 : Vec F S1x64 .f32) (x7 : Vec F S4096x1 .i32)
    (x8 : Vec F S64x64 .f32) (x9 : Vec F S1x64 .f32)
    (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9 ∗ (∃ d, owns (c : Thread nD τ) arg11 fullShare d)
        ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare (out3_10 (sc0Step s0 x0 x1 x2 x3 x4 x5 x6 x7) (sc1Step s1 x7) x8 x9)
            ∗ owns (c : Thread nD τ) arg12 fullShare (sc0Step s0 x0 x1 x2 x3 x4 x5 x6 x7) ∗ owns (c : Thread nD τ) arg13 fullShare (sc1Step s1 x7)) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8 arg9 harg9 arg10 harg10 arg11 harg11 arg12 harg12 arg13 harg13) K := by
  simp only [cc3__pool_kernel_eq_skeleton]; unfold cc3__pool_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%g0, %hg0, HS0⟩, ⟨%g1, %hg1, HS1⟩, Hk⟩
  subst hf0 hf1 hf2 hf3 hf4 hf5 hf6 hf7 hf8 hf9 hg0 hg1
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    unfold out3_10 sc0Step sc1Step
    rw [View.read_writes_eq_canon _ _ _ (cover3_d _), View.readCov_eq_canon_ld _ _ _ (cover3_d _), View.readCov_eq_canon_ld _ _ _ (cover3_e _)]
    try rfl
  isplitl [HS0]
  · iexists _; isplitr
    swap; · iexact HS0
    ipureintro
    exact View.read_writes_eq_canon _ _ _ (cover3_d _)
  iexists _; isplitr
  swap; · iexact HS1
  ipureintro
  exact View.read_writes_eq_canon _ _ _ (cover3_e _)

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem leaves3_0 (c : Dev nD) (t : Fin cfg3.N) :
    (dat3 V c).leavesExact 0 t = owns (c : Thread nD τ) (st3_0 t) fullShare (iblk3 V c 0 t) := by
  unfold Dat.leavesExact; rw [show cfg3.idle 0 (cfg3.grid.coords t) = false from rfl, after3_0]

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem leaves3_1 (c : Dev nD) (t : Fin cfg3.N) :
    (dat3 V c).leavesExact 1 t = owns (c : Thread nD τ) (st3_1 t) fullShare (iblk3 V c 1 t) := by
  unfold Dat.leavesExact; rw [show cfg3.idle 1 (cfg3.grid.coords t) = false from rfl, after3_1]

theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem leaves3_2 (c : Dev nD) (t : Fin cfg3.N) :
    (dat3 V c).leavesExact 2 t = owns (c : Thread nD τ) (st3_2 t) fullShare (iblk3 V c 2 t) := by
  unfold Dat.leavesExact; rw [show cfg3.idle 2 (cfg3.grid.coords t) = false from rfl, after3_2]

theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem leaves3_3 (c : Dev nD) (t : Fin cfg3.N) :
    (dat3 V c).leavesExact 3 t = owns (c : Thread nD τ) (st3_3 t) fullShare (iblk3 V c 3 t) := by
  unfold Dat.leavesExact; rw [show cfg3.idle 3 (cfg3.grid.coords t) = false from rfl, after3_3]

theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem leaves3_4 (c : Dev nD) (t : Fin cfg3.N) :
    (dat3 V c).leavesExact 4 t = owns (c : Thread nD τ) (st3_4 t) fullShare (iblk3 V c 4 t) := by
  unfold Dat.leavesExact; rw [show cfg3.idle 4 (cfg3.grid.coords t) = false from rfl, after3_4]

theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem leaves3_5 (c : Dev nD) (t : Fin cfg3.N) :
    (dat3 V c).leavesExact 5 t = owns (c : Thread nD τ) (st3_5 t) fullShare (iblk3 V c 5 t) := by
  unfold Dat.leavesExact; rw [show cfg3.idle 5 (cfg3.grid.coords t) = false from rfl, after3_5]

theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem leaves3_6 (c : Dev nD) (t : Fin cfg3.N) :
    (dat3 V c).leavesExact 6 t = owns (c : Thread nD τ) (st3_6 t) fullShare (iblk3 V c 6 t) := by
  unfold Dat.leavesExact; rw [show cfg3.idle 6 (cfg3.grid.coords t) = false from rfl, after3_6]

theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem leaves3_7 (c : Dev nD) (t : Fin cfg3.N) :
    (dat3 V c).leavesExact 7 t = owns (c : Thread nD τ) (st3_7 t) fullShare (iblk3 V c 7 t) := by
  unfold Dat.leavesExact; rw [show cfg3.idle 7 (cfg3.grid.coords t) = false from rfl, after3_7]

theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)
theorem leaves3_8 (c : Dev nD) (t : Fin cfg3.N) :
    (dat3 V c).leavesExact 8 t = owns (c : Thread nD τ) (st3_8 t) fullShare (iblk3 V c 8 t) := by
  unfold Dat.leavesExact; rw [show cfg3.idle 8 (cfg3.grid.coords t) = false from rfl, after3_8]

theorem before3_9 (c : Dev nD) (t : Fin cfg3.N) (d) : (dat3 V c).before 9 t d = iblk3 V c 9 t :=
  ((dat3 V c).before_in_eq_fetched 9 rfl (fun _ => rfl) (fun _ _ _ => rfl) (fun t => by rw [after3_9]; unfold Dat.blockOf iblk3; rw [A_eq3]; try rfl) t d).trans
    (by unfold Dat.fetched Dat.blockOf iblk3; rw [A_eq3]; try rfl)
theorem leaves3_9 (c : Dev nD) (t : Fin cfg3.N) :
    (dat3 V c).leavesExact 9 t = owns (c : Thread nD τ) (st3_9 t) fullShare (iblk3 V c 9 t) := by
  unfold Dat.leavesExact; rw [show cfg3.idle 9 (cfg3.grid.coords t) = false from rfl, after3_9]

theorem idleAt3_10 : ∀ t : Fin cfg3.N, ¬cond3_2 (grid3.coords t) → cfg3.idle 10 (grid3.coords t) = true := by decide +kernel
theorem noFlush3_10 : ∀ t : Fin cfg3.N, ¬cond3_2 (grid3.coords t) → (cfg3.win 10).flush t = false := by decide +kernel
theorem liveAt3_10 : ∀ t : Fin cfg3.N, cond3_2 (grid3.coords t) → cfg3.idle 10 (grid3.coords t) = false := by decide +kernel

theorem leaves3_10_idle (c : Dev nD) (t : Fin cfg3.N) (h : ¬cond3_2 (grid3.coords t)) :
    (dat3 V c).leavesExact 10 t = iprop(∃ d, owns (c : Thread nD τ) (st3_10 t) fullShare ((dat3 V c).before 10 t d)) :=
  Dat.leavesExact_idle (dat3 V c) 10 t (idleAt3_10 t h) (noFlush3_10 t h)

theorem leaves3_10_live (c : Dev nD) (t : Fin cfg3.N) (h : cond3_2 (grid3.coords t)) :
    (dat3 V c).leavesExact 10 t = owns (c : Thread nD τ) (st3_10 t) fullShare
      (out3_10 (sc0After V c t.val) (sc1After V c t.val) (iblk3 V c 8 t) (iblk3 V c 9 t)) := by
  unfold Dat.leavesExact; rw [liveAt3_10 t h, after3_10]

theorem hin3 (c : Dev nD) :
    iprop((∃ r, prngReg c r) ∗ Pipeline.prefHeld (pcfgs (F := F) 3).pre c (fun _ => fullShare) (adm 3).1
        ∗ Pipeline.scopedRest (Ix := Unit) (Name := ℕ) (U := UR sig nD τ) (Lvl := ℕ) (Val := Elt F) spec3 c)
      ⊢ ((dat3 V c).Φ 0 : sProp 𝕄) := by
  rw [show (dat3 V c).Φ 0 = Phi3 V c 0 from rfl]; unfold Phi3
  rw [scopedRest3_split]; simp only [owns_whole]
  iintro ⟨Hr, -, ⟨⟨%f0, H0⟩, ⟨%f1, H1⟩⟩, Hrest⟩
  isplitl [H0]
  · iexists f0; isplitr; · ipureintro; exact fun h => absurd h (Nat.lt_irrefl 0)
    iexact H0
  isplitl [H1]
  · iexists f1; isplitr; · ipureintro; exact fun h => absurd h (Nat.lt_irrefl 0)
    iexact H1
  iframe

theorem hout3 (c : Dev nD) :
    ((dat3 V c).Φ (Fin.last cfg3.N) : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec3 c) := by
  rw [Pipeline.ownSems0_none, show (dat3 V c).Φ (Fin.last cfg3.N) = Phi3 V c (Fin.last cfg3.N).val from rfl]; unfold Phi3
  rw [scopedRest3_split]; simp only [owns_whole]
  iintro ⟨⟨%d0, -, H0⟩, ⟨%d1, -, H1⟩, Hrest, Hr⟩
  isplitl [Hr]; · iexact Hr
  isplitr; · iempintro
  isplitl [H0 H1]
  · isplitl [H0]; · iexists d0; iexact H0
    iexists d1; iexact H1
  iexact Hrest

theorem pt3_val (t : Fin cfg3.N) : pt3 t.val = t :=
  Fin.ext (by have h : t.val < grid3.N := t.isLt; have := N_3; show min t.val 15 = t.val; omega)

theorem sc0After_zero (c : Dev nD) : sc0After V c 0 = sc0Step sc0Zero (iblk3 V c 0 (pt3 0)) (iblk3 V c 1 (pt3 0)) (iblk3 V c 2 (pt3 0))
    (iblk3 V c 3 (pt3 0)) (iblk3 V c 4 (pt3 0)) (iblk3 V c 5 (pt3 0)) (iblk3 V c 6 (pt3 0)) (iblk3 V c 7 (pt3 0)) := rfl
theorem sc0After_succ (c : Dev nD) (n : ℕ) : sc0After V c (n + 1) = sc0Step (sc0After V c n) (iblk3 V c 0 (pt3 (n + 1))) (iblk3 V c 1 (pt3 (n + 1)))
    (iblk3 V c 2 (pt3 (n + 1))) (iblk3 V c 3 (pt3 (n + 1))) (iblk3 V c 4 (pt3 (n + 1))) (iblk3 V c 5 (pt3 (n + 1))) (iblk3 V c 6 (pt3 (n + 1)))
    (iblk3 V c 7 (pt3 (n + 1))) := rfl
theorem sc1After_zero (c : Dev nD) : sc1After V c 0 = sc1Step sc1Zero (iblk3 V c 7 (pt3 0)) := rfl
theorem sc1After_succ (c : Dev nD) (n : ℕ) : sc1After V c (n + 1) = sc1Step (sc1After V c n) (iblk3 V c 7 (pt3 (n + 1))) := rfl

theorem sc0After_first (c : Dev nD) (t : Fin cfg3.N) (h : t.val = 0) :
    sc0After V c t.val = sc0Step sc0Zero (iblk3 V c 0 t) (iblk3 V c 1 t) (iblk3 V c 2 t) (iblk3 V c 3 t) (iblk3 V c 4 t) (iblk3 V c 5 t) (iblk3 V c 6 t) (iblk3 V c 7 t) := by
  have e : pt3 0 = t := by rw [← h]; exact pt3_val t
  rw [h, sc0After_zero, e]
theorem sc1After_first (c : Dev nD) (t : Fin cfg3.N) (h : t.val = 0) :
    sc1After V c t.val = sc1Step sc1Zero (iblk3 V c 7 t) := by
  have e : pt3 0 = t := by rw [← h]; exact pt3_val t
  rw [h, sc1After_zero, e]
theorem sc0After_later (c : Dev nD) (t : Fin cfg3.N) (h : t.val ≠ 0) :
    sc0After V c t.val = sc0Step (sc0After V c (t.val - 1)) (iblk3 V c 0 t) (iblk3 V c 1 t) (iblk3 V c 2 t) (iblk3 V c 3 t) (iblk3 V c 4 t) (iblk3 V c 5 t) (iblk3 V c 6 t) (iblk3 V c 7 t) := by
  obtain ⟨n, hn⟩ : ∃ n, t.val = n + 1 := ⟨t.val - 1, by omega⟩
  have e : pt3 (n + 1) = t := by rw [← hn]; exact pt3_val t
  rw [hn, sc0After_succ, e, Nat.add_sub_cancel]
theorem sc1After_later (c : Dev nD) (t : Fin cfg3.N) (h : t.val ≠ 0) :
    sc1After V c t.val = sc1Step (sc1After V c (t.val - 1)) (iblk3 V c 7 t) := by
  obtain ⟨n, hn⟩ : ∃ n, t.val = n + 1 := ⟨t.val - 1, by omega⟩
  have e : pt3 (n + 1) = t := by rw [← hn]; exact pt3_val t
  rw [hn, sc1After_succ, e, Nat.add_sub_cancel]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [leaves3_0, leaves3_1, leaves3_2, leaves3_3, leaves3_4, leaves3_5, leaves3_6, leaves3_7, leaves3_8, leaves3_9]
  rw [show (dat3 V c).owesAt () t.succ = (dat3 V c).owesAt () t.castSucc from rfl,
    show (dat3 V c).Φ t.succ = Phi3 V c (t.val + 1) from rfl, show (dat3 V c).Φ t.castSucc = Phi3 V c t.val from rfl]
  unfold Phi3
  simp only [Nat.add_sub_cancel]
  have hN : t.val < 16 := lt_of_lt_of_eq t.isLt (show cfg3.N = 16 from N_3)
  by_cases h0 : t.val = 0
  · have hc1 : cond3_1 (grid3.coords t) := (hcond3_1 t).mpr h0
    have hc2 : ¬cond3_2 (grid3.coords t) := fun h => by have := (hcond3_2 t).mp h; omega
    rw [leaves3_10_idle V c t hc2, sc0After_first V c t h0, sc1After_first V c t h0]
    iintro ⟨⟨⟨%d0, -, HS0⟩, ⟨%d1, -, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
    iapply (sound_kernel3_first c Set.univ (grid3.coords t) hc1 hc2 _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
    iframe H0 H1 H2 H3 H4 H5 H6 H7
    isplitl [HS0]; · iexists d0; iexact HS0
    isplitl [HS1]; · iexists d1; iexact HS1
    iintro ⟨H0, H1, H2, H3, H4, H5, H6, H7, HS0, HS1⟩
    isplitl [HS0 HS1 Hrest Hg]
    · isplitl [HS0]
      · iexists _; isplitr; · ipureintro; exact fun _ => rfl
        iexact HS0
      isplitl [HS1]
      · iexists _; isplitr; · ipureintro; exact fun _ => rfl
        iexact HS1
      iframe
    iframe Ho H0 H1 H2 H3 H4 H5 H6 H7 H8 H9
    iexists e10; iexact H10
  · by_cases h15 : t.val = 15
    · have hc1 : ¬cond3_1 (grid3.coords t) := fun h => h0 ((hcond3_1 t).mp h)
      have hc2 : cond3_2 (grid3.coords t) := (hcond3_2 t).mpr h15
      rw [leaves3_10_live V c t hc2, sc0After_later V c t h0, sc1After_later V c t h0]
      iintro ⟨⟨⟨%d0, %hd0, HS0⟩, ⟨%d1, %hd1, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
      obtain rfl := hd0 (Nat.pos_of_ne_zero h0); obtain rfl := hd1 (Nat.pos_of_ne_zero h0)
      iapply (sound_kernel3_last c Set.univ (grid3.coords t) hc1 hc2 _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _ _ _)
      iframe H0 H1 H2 H3 H4 H5 H6 H7 H8 H9
      isplitl [H10]; · iexists _; iexact H10
      iframe HS0 HS1
      iintro ⟨H0, H1, H2, H3, H4, H5, H6, H7, H8, H9, H10, HS0, HS1⟩
      isplitl [HS0 HS1 Hrest Hg]
      · isplitl [HS0]
        · iexists _; isplitr; · ipureintro; exact fun _ => rfl
          iexact HS0
        isplitl [HS1]
        · iexists _; isplitr; · ipureintro; exact fun _ => rfl
          iexact HS1
        iframe
      iframe
    · have hc1 : ¬cond3_1 (grid3.coords t) := fun h => h0 ((hcond3_1 t).mp h)
      have hc2 : ¬cond3_2 (grid3.coords t) := fun h => h15 ((hcond3_2 t).mp h)
      rw [leaves3_10_idle V c t hc2, sc0After_later V c t h0, sc1After_later V c t h0]
      iintro ⟨⟨⟨%d0, %hd0, HS0⟩, ⟨%d1, %hd1, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
      obtain rfl := hd0 (Nat.pos_of_ne_zero h0); obtain rfl := hd1 (Nat.pos_of_ne_zero h0)
      iapply (sound_kernel3_mid c Set.univ (grid3.coords t) hc1 hc2 _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _ _ _)
      iframe H0 H1 H2 H3 H4 H5 H6 H7 HS0 HS1
      iintro ⟨H0, H1, H2, H3, H4, H5, H6, H7, HS0, HS1⟩
      isplitl [HS0 HS1 Hrest Hg]
      · isplitl [HS0]
        · iexists _; isplitr; · ipureintro; exact fun _ => rfl
          iexact HS0
        isplitl [HS1]
        · iexists _; isplitr; · ipureintro; exact fun _ => rfl
          iexact HS1
        iframe
      iframe Ho H0 H1 H2 H3 H4 H5 H6 H7 H8 H9
      iexists e10; iexact H10

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Segs.lean ====
import proofs.«431363_j22273700397650_3_alg».proof.Proof.Gen.KernelIdeal.Launch
import proofs.«431363_j22273700397650_3_alg».proof.Proof.Gen.KernelIdeal.Skeleton
import proofs.«431363_j22273700397650_3_alg».proof.Proof.Gen.KernelIdeal.Points
import proofs.«431363_j22273700397650_3_alg».proof.Proof.Gen.KernelIdeal.Regions
import proofs.«431363_j22273700397650_3_alg».proof.Proof.KI.Reg0
import proofs.«431363_j22273700397650_3_alg».proof.Proof.KI.Reg1
import proofs.«431363_j22273700397650_3_alg».proof.Proof.KI.Reg2
import proofs.«431363_j22273700397650_3_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev U3 : Dev nD → Valuation τ sig (Elt F) := fun c => Gen.V3 m c
abbrev T3 := atTc (U3 m)

def o4 (c : Dev nD) : Buf (Elt F) ((c : Thread nD τ).loc main_v19) := (dat0 (T3 m) c).arrAt 3 cfg0.N
def U4 (c : Dev nD) : Valuation τ sig (Elt F) := Function.update (U3 m c) main_v19 (o4 m c)
def U5 (c : Dev nD) : Valuation τ sig (Elt F) := StableHlo.after hostOps1 (U4 m c)
abbrev T5 := atTc (U5 m)

def o6 (c : Dev nD) : Buf (Elt F) ((c : Thread nD τ).loc main_v35) := (dat1 (T5 m) c).arrAt 8 cfg1.N
def U6 (c : Dev nD) : Valuation τ sig (Elt F) := Function.update (U5 m c) main_v35 (o6 m c)
def U7 (c : Dev nD) : Valuation τ sig (Elt F) := StableHlo.after hostOps2 (U6 m c)
abbrev T7 := atTc (U7 m)

def o8 (c : Dev nD) : Buf (Elt F) ((c : Thread nD τ).loc main_v51) := (dat2 (T7 m) c).arrAt 8 cfg2.N
def U8 (c : Dev nD) : Valuation τ sig (Elt F) := Function.update (U7 m c) main_v51 (o8 m c)
def U9 (c : Dev nD) : Valuation τ sig (Elt F) := StableHlo.after hostOps3 (U8 m c)
abbrev T9 := atTc (U9 m)

def o10 (c : Dev nD) : Buf (Elt F) ((c : Thread nD τ).loc main_v68) := (dat3 (T9 m) c).arrAt 10 cfg3.N
def U10 (c : Dev nD) : Valuation τ sig (Elt F) := Function.update (U9 m c) main_v68 (o10 m c)

def outs : Gen.Outs (F := F) := fun J r c => match J with
  | 4 => U4 m c r
  | 6 => U6 m c r
  | 8 => U8 m c r
  | 10 => U10 m c r
  | _ => U3 m c r

theorem outs_4 (c : Dev nD) : outs m 4 main_v19 c = (dat0 (T3 m) c).arrAt 3 cfg0.N := by
  show U4 m c _ = _
  unfold U4
  exact Function.update_self _ _ _
theorem V4_eq (c : Dev nD) : Gen.V4 m (outs m) c = U4 m c := by
  show Function.update (Gen.V3 m c) _ (outs m 4 main_v19 c) = _
  rw [outs_4]
  rfl
theorem V5_eq (c : Dev nD) : Gen.V5 m (outs m) c = U5 m c := by
  show StableHlo.after hostOps1 (Gen.V4 m (outs m) c) = _
  rw [V4_eq]
  rfl

theorem outs_6 (c : Dev nD) : outs m 6 main_v35 c = (dat1 (T5 m) c).arrAt 8 cfg1.N := by
  show U6 m c _ = _
  unfold U6
  exact Function.update_self _ _ _
theorem V6_eq (c : Dev nD) : Gen.V6 m (outs m) c = U6 m c := by
  show Function.update (Gen.V5 m (outs m) c) _ (outs m 6 main_v35 c) = _
  rw [outs_6, V5_eq]
  rfl
theorem V7_eq (c : Dev nD) : Gen.V7 m (outs m) c = U7 m c := by
  show StableHlo.after hostOps2 (Gen.V6 m (outs m) c) = _
  rw [V6_eq]
  rfl

theorem outs_8 (c : Dev nD) : outs m 8 main_v51 c = (dat2 (T7 m) c).arrAt 8 cfg2.N := by
  show U8 m c _ = _
  unfold U8
  exact Function.update_self _ _ _
theorem V8_eq (c : Dev nD) : Gen.V8 m (outs m) c = U8 m c := by
  show Function.update (Gen.V7 m (outs m) c) _ (outs m 8 main_v51 c) = _
  rw [outs_8, V7_eq]
  rfl
theorem V9_eq (c : Dev nD) : Gen.V9 m (outs m) c = U9 m c := by
  show StableHlo.after hostOps3 (Gen.V8 m (outs m) c) = _
  rw [V8_eq]
  rfl

theorem outs_10 (c : Dev nD) : outs m 10 main_v68 c = (dat3 (T9 m) c).arrAt 10 cfg3.N := by
  show U10 m c _ = _
  unfold U10
  exact Function.update_self _ _ _
theorem hA0 (c : Dev nD) (w : Fin cfg0.W) : (dat0 (T3 m) c).A w = Gen.V3 m c (Pipeline.arrRef spec0 w) := A_eq0 (T3 m) c w
theorem hF0 (c : Dev nD) (w : Fin cfg0.W) : (dat0 (T3 m) c).arrAt w cfg0.N = Gen.V4 m (outs m) c (Pipeline.arrRef spec0 w) := by
  by_cases hw : w = 3
  · subst hw
    have h : Gen.V4 m (outs m) c (Proc.devRef (τ := τ) .tc main_v19) = outs m 4 main_v19 c :=
      Function.update_self (Proc.devRef (τ := τ) .tc main_v19) (outs m 4 main_v19 c) (Gen.V3 m c)
    exact (h.trans (outs_4 m c)).symm
  · have hin : (cfg0.win w).isOut = false := by revert w; decide
    have hne : Pipeline.arrRef spec0 w ∉ ([main_v19] : List (Ref sig .tc)) := by revert w; decide
    rw [(dat0 (T3 m) c).arrAt_in w hin, hA0]
    exact (Gen.V4_of m (outs m) c _ hne).symm
theorem hrest0 (c : Dev nD) : ∀ b : Ref sig .tc, b ∉ Finset.univ.image (Pipeline.arrRef spec0) → Gen.V4 m (outs m) c b = Gen.V3 m c b := fun b hb =>
  Gen.V4_of m (outs m) c b fun h => hb (Finset.mem_image.mpr ⟨3, Finset.mem_univ _, (List.mem_singleton.mp h).symm⟩)

theorem hA1 (c : Dev nD) (w : Fin cfg1.W) : (dat1 (T5 m) c).A w = Gen.V5 m (outs m) c (Pipeline.arrRef spec1 w) := (A_eq1 (T5 m) c w).trans (congrFun (V5_eq m c).symm _)
theorem hF1 (c : Dev nD) (w : Fin cfg1.W) : (dat1 (T5 m) c).arrAt w cfg1.N = Gen.V6 m (outs m) c (Pipeline.arrRef spec1 w) := by
  by_cases hw : w = 8
  · subst hw
    have h : Gen.V6 m (outs m) c (Proc.devRef (τ := τ) .tc main_v35) = outs m 6 main_v35 c :=
      Function.update_self (Proc.devRef (τ := τ) .tc main_v35) (outs m 6 main_v35 c) (Gen.V5 m (outs m) c)
    exact (h.trans (outs_6 m c)).symm
  · have hin : (cfg1.win w).isOut = false := by revert w; decide
    have hne : Pipeline.arrRef spec1 w ∉ ([main_v35] : List (Ref sig .tc)) := by revert w; decide
    rw [(dat1 (T5 m) c).arrAt_in w hin, hA1]
    exact (Gen.V6_of m (outs m) c _ hne).symm
theorem hrest1 (c : Dev nD) : ∀ b : Ref sig .tc, b ∉ Finset.univ.image (Pipeline.arrRef spec1) → Gen.V6 m (outs m) c b = Gen.V5 m (outs m) c b := fun b hb =>
  Gen.V6_of m (outs m) c b fun h => hb (Finset.mem_image.mpr ⟨8, Finset.mem_univ _, (List.mem_singleton.mp h).symm⟩)

theorem hA2 (c : Dev nD) (w : Fin cfg2.W) : (dat2 (T7 m) c).A w = Gen.V7 m (outs m) c (Pipeline.arrRef spec2 w) := (A_eq2 (T7 m) c w).trans (congrFun (V7_eq m c).symm _)
theorem hF2 (c : Dev nD) (w : Fin cfg2.W) : (dat2 (T7 m) c).arrAt w cfg2.N = Gen.V8 m (outs m) c (Pipeline.arrRef spec2 w) := by
  by_cases hw : w = 8
  · subst hw
    have h : Gen.V8 m (outs m) c (Proc.devRef (τ := τ) .tc main_v51) = outs m 8 main_v51 c :=
      Function.update_self (Proc.devRef (τ := τ) .tc main_v51) (outs m 8 main_v51 c) (Gen.V7 m (outs m) c)
    exact (h.trans (outs_8 m c)).symm
  · have hin : (cfg2.win w).isOut = false := by revert w; decide
    have hne : Pipeline.arrRef spec2 w ∉ ([main_v51] : List (Ref sig .tc)) := by revert w; decide
    rw [(dat2 (T7 m) c).arrAt_in w hin, hA2]
    exact (Gen.V8_of m (outs m) c _ hne).symm
theorem hrest2 (c : Dev nD) : ∀ b : Ref sig .tc, b ∉ Finset.univ.image (Pipeline.arrRef spec2) → Gen.V8 m (outs m) c b = Gen.V7 m (outs m) c b := fun b hb =>
  Gen.V8_of m (outs m) c b fun h => hb (Finset.mem_image.mpr ⟨8, Finset.mem_univ _, (List.mem_singleton.mp h).symm⟩)

theorem hA3 (c : Dev nD) (w : Fin cfg3.W) : (dat3 (T9 m) c).A w = Gen.V9 m (outs m) c (Pipeline.arrRef spec3 w) := (A_eq3 (T9 m) c w).trans (congrFun (V9_eq m c).symm _)
theorem hF3 (c : Dev nD) (w : Fin cfg3.W) : (dat3 (T9 m) c).arrAt w cfg3.N = Gen.V10 m (outs m) c (Pipeline.arrRef spec3 w) := by
  by_cases hw : w = 10
  · subst hw
    have h : Gen.V10 m (outs m) c (Proc.devRef (τ := τ) .tc main_v68) = outs m 10 main_v68 c :=
      Function.update_self (Proc.devRef (τ := τ) .tc main_v68) (outs m 10 main_v68 c) (Gen.V9 m (outs m) c)
    exact (h.trans (outs_10 m c)).symm
  · have hin : (cfg3.win w).isOut = false := by revert w; decide
    have hne : Pipeline.arrRef spec3 w ∉ ([main_v68] : List (Ref sig .tc)) := by revert w; decide
    rw [(dat3 (T9 m) c).arrAt_in w hin, hA3]
    exact (Gen.V10_of m (outs m) c _ hne).symm
theorem hrest3 (c : Dev nD) : ∀ b : Ref sig .tc, b ∉ Finset.univ.image (Pipeline.arrRef spec3) → Gen.V10 m (outs m) c b = Gen.V9 m (outs m) c b := fun b hb =>
  Gen.V10_of m (outs m) c b fun h => hb (Finset.mem_image.mpr ⟨10, Finset.mem_univ _, (List.mem_singleton.mp h).symm⟩)

def pdats : (p : Fin 4) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T5 m) c
  | ⟨2, _⟩ => fun c => dat2 (T7 m) c
  | ⟨3, _⟩ => fun c => dat3 (T9 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 5 → Dev nD → sProp 𝕄 := fun _ => R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => Gen.V3 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m 0 c).Φ 0 = Pipeline.ΦA spec0 c from rfl]; unfold Pipeline.ΦA
    iintro ⟨Hp, -, Hr⟩
    iframe
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Gen.V3 m c b) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Gen.V5 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m 1 c).Φ 0 = Pipeline.ΦA spec1 c from rfl]; unfold Pipeline.ΦA
    iintro ⟨Hp, -, Hr⟩
    iframe
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V5 m (outs m) c b) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T7 m) c).loose
  hwaits := Pipeline.hwaits_of_owed_zero _ _ _ _ L lv 2 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V7 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => Gen.V7 m (outs m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m 2 c).Φ 0 = Pipeline.ΦA spec2 c from rfl]; unfold Pipeline.ΦA
    iintro ⟨Hp, -, Hr⟩
    iframe
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => Gen.V7 m (outs m) c b) (fun b => Gen.V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T9 m) c).loose
  hwaits := Pipeline.hwaits_of_owed_zero _ _ _ _ L lv 3 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V9 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => Gen.V9 m (outs m) c b) (hA3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := hin3 (T9 m) c
  hout c := hout3 (T9 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => Gen.V9 m (outs m) c b) (fun b => Gen.V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«431363_j22273700397650_3_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_gen (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = Gen.V10 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m) (reg2 m) (reg3 m))
    (fun c Q => by
      rewrite [main_chain c, Pipeline.Seg.run_eq_chain,
        show (Gen.segs m (outs m) 𝒱₀ L lv E () (pdats m) (reg0 m) (reg1 m) (reg2 m) (reg3 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V10 m (outs m) c))
    (hch := fun c => ⟨.rfl, .rfl, .rfl, .rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V10 m (outs m) c b)
    (hfin := fun c s' => by
      iintro ⟨Hh, HSI⟩
      unfold StableHlo.held
      imodintro
      iapply (pointsTo_read_all (Pipeline.ucRefs τ sig) (fun b => ((c : Thread nD τ).1, b)) (Gen.V10 m (outs m) c) s')
      isplitl [Hh] <;> iassumption)
    (hQ := hQ)

theorem run_value (ρ : Dev nD → PrngReg) : θ_run defs (onTc (τ := τ) (main (F := F))) ⟨m, fun _ => 0, ρ⟩ (fun r => ∀ c : Dev nD,
      r.2.mem ((c.tc : Thread nD τ).loc main_v68) = Gen.V10 m (outs m) c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_gen m ρ fun s h c => ⟨h c _ (mem_uc main_v68 (by decide)), (h c _ (mem_uc main_arg0 (by decide))).trans (Gen.V10_main_arg0 m (outs m) c),
    (h c _ (mem_uc main_arg1 (by decide))).trans (Gen.V10_main_arg1 m (outs m) c),
    (h c _ (mem_uc main_arg2 (by decide))).trans (Gen.V10_main_arg2 m (outs m) c),
    (h c _ (mem_uc main_arg3 (by decide))).trans (Gen.V10_main_arg3 m (outs m) c),
    (h c _ (mem_uc main_arg4 (by decide))).trans (Gen.V10_main_arg4 m (outs m) c),
    (h c _ (mem_uc main_arg5 (by decide))).trans (Gen.V10_main_arg5 m (outs m) c),
    (h c _ (mem_uc main_arg6 (by decide))).trans (Gen.V10_main_arg6 m (outs m) c),
    (h c _ (mem_uc main_arg7 (by decide))).trans (Gen.V10_main_arg7 m (outs m) c),
    (h c _ (mem_uc main_arg8 (by decide))).trans (Gen.V10_main_arg8 m (outs m) c),
    (h c _ (mem_uc main_arg9 (by decide))).trans (Gen.V10_main_arg9 m (outs m) c),
    (h c _ (mem_uc main_arg10 (by decide))).trans (Gen.V10_main_arg10 m (outs m) c),
    (h c _ (mem_uc main_arg11 (by decide))).trans (Gen.V10_main_arg11 m (outs m) c),
    (h c _ (mem_uc main_arg12 (by decide))).trans (Gen.V10_main_arg12 m (outs m) c),
    (h c _ (mem_uc main_arg13 (by decide))).trans (Gen.V10_main_arg13 m (outs m) c),
    (h c _ (mem_uc main_arg14 (by decide))).trans (Gen.V10_main_arg14 m (outs m) c),
    (h c _ (mem_uc main_arg15 (by decide))).trans (Gen.V10_main_arg15 m (outs m) c),
    (h c _ (mem_uc main_arg16 (by decide))).trans (Gen.V10_main_arg16 m (outs m) c),
    (h c _ (mem_uc main_arg17 (by decide))).trans (Gen.V10_main_arg17 m (outs m) c),
    (h c _ (mem_uc main_arg18 (by decide))).trans (Gen.V10_main_arg18 m (outs m) c),
    (h c _ (mem_uc main_arg19 (by decide))).trans (Gen.V10_main_arg19 m (outs m) c),
    (h c _ (mem_uc main_arg20 (by decide))).trans (Gen.V10_main_arg20 m (outs m) c),
    (h c _ (mem_uc main_arg21 (by decide))).trans (Gen.V10_main_arg21 m (outs m) c),
    (h c _ (mem_uc main_arg22 (by decide))).trans (Gen.V10_main_arg22 m (outs m) c)⟩

end Cert.KernelIdeal.Hand

end
-- ==== Proof.SameProgram.lean ====
import proofs.«431363_j22273700397650_3_alg».proof.Kernel
import proofs.«431363_j22273700397650_3_alg».proof.KernelIdeal
import proofs.«431363_j22273700397650_3_alg».proof.Proof.Gen.Kernel
import proofs.«431363_j22273700397650_3_alg».proof.Proof.Gen.KernelIdeal

noncomputable section

namespace Cert.Proof

open Idealize.ShloMosaic

attribute [local instance] Cert.Kernel.Gen.facts Cert.KernelIdeal.Gen.facts

variable {F : FTy → Type} [FloatOps F]

-- The idealization rewrote nothing: label by label the two programs have the same kernel bodies,
set_option maxHeartbeats 4000000 in
theorem defs₀_eq : Cert.Kernel.defs₀ (F := F) = Cert.KernelIdeal.defs₀ (F := F) := by
  unfold Cert.Kernel.defs₀ Cert.KernelIdeal.defs₀
  congr 1
  funext l x
  match l, x with
  | 0, (t, s) => rfl
  | 1, (t, s) => rfl
  | 2, (t, s) => rfl
  | 3, (t, s) => rfl
  | ⟨_ + 4, h⟩, _ => exact absurd h (by omega)

-- and over the same pipelines the same function table.
set_option maxHeartbeats 4000000 in
theorem defs_eq : Cert.Kernel.defs (F := F) = Cert.KernelIdeal.defs (F := F) := by
  unfold Cert.Kernel.defs Cert.KernelIdeal.defs
  rw [defs₀_eq]
  rfl

end Cert.Proof

end
-- ==== Proof.Val.KHost.lean ====
import proofs.«431363_j22273700397650_3_alg».proof.Proof.Gen.KernelIdeal.Regions
import Idealize.ShloMosaic.Lib.StableHlo.Run
import Idealize.ShloMosaic.Lib.Pipeline.Value
import Idealize.ShloMosaic.Lib.ValueIdx

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

def srcTerm (x1 : (⟨S2x1048576, .i32⟩ : BufTy).Contents (Elt F)) : (⟨S1114112, .i32⟩ : BufTy).Contents (Elt F) :=
  concatenate S1114112 0 [⟨S1048576, shapeCast S1048576 (extractStridedSlice S1x1048576 ![0, 0] x1 slices_S2x1048576_S1x1048576_0_0) shapeCasts_S1x1048576_S1048576⟩, ⟨S65536, iotaInDim S65536 32 0⟩] concatenates_S1048576_S65536_S1114112_d0

def dstTerm (x1 : (⟨S2x1048576, .i32⟩ : BufTy).Contents (Elt F)) : (⟨S1114112, .i32⟩ : BufTy).Contents (Elt F) :=
  concatenate S1114112 0 [⟨S1048576, shapeCast S1048576 (extractStridedSlice S1x1048576 ![1, 0] x1 slices_S2x1048576_S1x1048576_1_0) shapeCasts_S1x1048576_S1048576⟩, ⟨S65536, iotaInDim S65536 32 0⟩] concatenates_S1048576_S65536_S1114112_d0

def degTerm (x1 : (⟨S2x1048576, .i32⟩ : BufTy).Contents (Elt F)) : (⟨S65536, .f32⟩ : BufTy).Contents (Elt F) :=
  Host.scatterAdd scatter_S65536_S1114112x1_S1114112_n_0_0_1
    (broadcastInDim S65536 ![] bcast_S_S65536 (constant S_ .f32 0x00000000#32))
    (broadcastInDim S1114112x1 ![0] bcast_S1114112_S1114112x1_0 (dstTerm x1))
    (broadcastInDim S1114112 ![] bcast_S_S1114112 (constant S_ .f32 0x3F800000#32))

def disTerm (x1 : (⟨S2x1048576, .i32⟩ : BufTy).Contents (Elt F)) : (⟨S65536, .f32⟩ : BufTy).Contents (Elt F) :=
  select (cmpf .ogt (degTerm x1) (broadcastInDim S65536 ![] bcast_S_S65536 (constant S_ .f32 0x00000000#32)))
    (Host.rsqrt (maximumf (degTerm x1) (broadcastInDim S65536 ![] bcast_S_S65536 (constant S_ .f32 0x3F800000#32))))
    (broadcastInDim S65536 ![] bcast_S_S65536 (id (constant S_ .f32 0x00000000#32)))

def gidxOf (src : (⟨S1114112, .i32⟩ : BufTy).Contents (Elt F)) : (⟨S1114112x1, .i32⟩ : BufTy).Contents (Elt F) :=
  broadcastInDim S1114112x1 ![0] bcast_S1114112_S1114112x1_0
    (select (cmpi .slt src (broadcastInDim S1114112 ![] bcast_S_S1114112 (constantI S_ 32 0#32)))
      (addi src (broadcastInDim S1114112 ![] bcast_S_S1114112 (constantI S_ 32 65536#32)))
      src)

def aggOf (src dst : (⟨S1114112, .i32⟩ : BufTy).Contents (Elt F)) (h : (⟨S65536x64, .f32⟩ : BufTy).Contents (Elt F)) : (⟨S65536x64, .f32⟩ : BufTy).Contents (Elt F) :=
  Host.scatterAdd scatter_S65536x64_S1114112x1_S1114112x64_1_0_0_1
    (broadcastInDim S65536x64 ![] bcast_S_S65536x64 (constant S_ .f32 0x00000000#32))
    (broadcastInDim S1114112x1 ![0] bcast_S1114112_S1114112x1_0 dst)
    (Host.gather gather_S65536x64_S1114112x1_S1114112x64_1_0_n_n_0_1_164 h (gidxOf src))

def aggTerm (x1 : (⟨S2x1048576, .i32⟩ : BufTy).Contents (Elt F)) (h : (⟨S65536x64, .f32⟩ : BufTy).Contents (Elt F)) : (⟨S65536x64, .f32⟩ : BufTy).Contents (Elt F) :=
  aggOf (srcTerm x1) (dstTerm x1) h

theorem V1_arg (c : Dev nD) (r : Ref sig .tc) (h0 : r ∉ hostOps0_W) : V1 m c r = m ((c : Thread nD τ).loc r) :=
  V1_of m c r h0
theorem V3_of_V1 (c : Dev nD) (r : Ref sig .tc) (h1 : r ∉ hostOps0_1_W) (h2 : r ∉ hostOps0_2_W) : V3 m c r = V1 m c r :=
  (V3_of m c r h2).trans (V2_of m c r h1)
set_option maxHeartbeats 2000000 in
theorem V1_src (c : Dev nD) : (V1 m c main_v3 : (⟨S1114112, .i32⟩ : BufTy).Contents (Elt F)) = srcTerm (m ((c : Thread nD τ).loc main_arg1)) := by
  dsimp only [V1, V0, hostOps0]
  after_results_simp
  unfold srcTerm
  rfl

set_option maxHeartbeats 2000000 in
theorem V1_dst (c : Dev nD) : (V1 m c main_v6 : (⟨S1114112, .i32⟩ : BufTy).Contents (Elt F)) = dstTerm (m ((c : Thread nD τ).loc main_arg1)) := by
  dsimp only [V1, V0, hostOps0]
  after_results_simp
  unfold dstTerm
  rfl

set_option maxHeartbeats 2000000 in
theorem kdisCol (c : Dev nD) :
    (V3 m c main_v17 : (⟨S65536x1, .f32⟩ : BufTy).Contents (Elt F)) = shapeCast S65536x1 (disTerm (m ((c : Thread nD τ).loc main_arg1))) shapeCasts_S65536_S65536x1 := by
  dsimp only [V3, V2, V1, V0, hostOps0_2, hostOps0_1, hostOps0]
  after_results_simp
  unfold disTerm degTerm dstTerm
  rfl

set_option maxHeartbeats 2000000 in
theorem kbatchCol (c : Dev nD) :
    (V3 m c main_v18 : (⟨S65536x1, .i32⟩ : BufTy).Contents (Elt F)) = shapeCast S65536x1 (m ((c : Thread nD τ).loc main_arg2)) shapeCasts_S65536_S65536x1 := by
  dsimp only [V3, V2, V1, V0, hostOps0_2, hostOps0_1, hostOps0]
  after_results_simp
  rfl

theorem V3_src (c : Dev nD) : (V3 m c main_v3 : (⟨S1114112, .i32⟩ : BufTy).Contents (Elt F)) = srcTerm (m ((c : Thread nD τ).loc main_arg1)) :=
  (V3_of_V1 m c main_v3 (by decide) (by decide)).trans (V1_src m c)
theorem V3_dst (c : Dev nD) : (V3 m c main_v6 : (⟨S1114112, .i32⟩ : BufTy).Contents (Elt F)) = dstTerm (m ((c : Thread nD τ).loc main_arg1)) :=
  (V3_of_V1 m c main_v6 (by decide) (by decide)).trans (V1_dst m c)
theorem V3_arg (c : Dev nD) (r : Ref sig .tc) (h0 : r ∉ hostOps0_W) (h1 : r ∉ hostOps0_1_W) (h2 : r ∉ hostOps0_2_W) :
    V3 m c r = m ((c : Thread nD τ).loc r) :=
  (V3_of_V1 m c r h1 h2).trans (V1_arg m c r h0)
theorem V3_arg0 (c : Dev nD) : V3 m c main_arg0 = m ((c : Thread nD τ).loc main_arg0) := V3_arg m c main_arg0 (by decide) (by decide) (by decide)
theorem V3_arg3 (c : Dev nD) : V3 m c main_arg3 = m ((c : Thread nD τ).loc main_arg3) := V3_arg m c main_arg3 (by decide) (by decide) (by decide)

theorem V4_kept (c : Dev nD) (r : Ref sig .tc) (h : r ∉ hostOps0_W ∧ r ∉ hostOps0_1_W ∧ r ∉ hostOps0_2_W ∧ r ∉ ([main_v19] : List (Ref sig .tc))) :
    V4 m outs c r = m ((c : Thread nD τ).loc r) :=
  (V4_of m outs c r h.2.2.2).trans (V3_arg m c r h.1 h.2.1 h.2.2.1)
theorem V6_kept (c : Dev nD) (r : Ref sig .tc)
    (h : (r ∉ hostOps0_W ∧ r ∉ hostOps0_1_W ∧ r ∉ hostOps0_2_W ∧ r ∉ ([main_v19] : List (Ref sig .tc))) ∧ r ∉ hostOps1_W ∧ r ∉ ([main_v35] : List (Ref sig .tc))) :
    V6 m outs c r = m ((c : Thread nD τ).loc r) :=
  (V6_of m outs c r h.2.2).trans <| (V5_of m outs c r h.2.1).trans (V4_kept m outs c r h.1)
theorem V8_kept (c : Dev nD) (r : Ref sig .tc)
    (h : ((r ∉ hostOps0_W ∧ r ∉ hostOps0_1_W ∧ r ∉ hostOps0_2_W ∧ r ∉ ([main_v19] : List (Ref sig .tc))) ∧ r ∉ hostOps1_W ∧ r ∉ ([main_v35] : List (Ref sig .tc))) ∧ r ∉ hostOps2_W ∧ r ∉ ([main_v51] : List (Ref sig .tc))) :
    V8 m outs c r = m ((c : Thread nD τ).loc r) :=
  (V8_of m outs c r h.2.2).trans <| (V7_of m outs c r h.2.1).trans (V6_kept m outs c r h.1)

set_option maxHeartbeats 2000000 in
theorem host1_agg (W : Valuation τ sig (Elt F)) :
    (StableHlo.after hostOps1 W main_v29 : (⟨S65536x64, .f32⟩ : BufTy).Contents (Elt F)) = aggOf (W main_v3) (W main_v6) (W main_v19) := by
  dsimp only [hostOps1]
  after_results_simp
  unfold aggOf gidxOf
  rfl

theorem host1_main_v30 (W : Valuation τ sig (Elt F)) :
    (StableHlo.after hostOps1 W main_v30 : (⟨S1x64, .f32⟩ : BufTy).Contents (Elt F)) = shapeCast S1x64 (W main_arg4) shapeCasts_S64_S1x64 := by
  dsimp only [hostOps1]
  after_results_simp
  rfl

theorem host1_main_v31 (W : Valuation τ sig (Elt F)) :
    (StableHlo.after hostOps1 W main_v31 : (⟨S1x64, .f32⟩ : BufTy).Contents (Elt F)) = shapeCast S1x64 (W main_arg5) shapeCasts_S64_S1x64 := by
  dsimp only [hostOps1]
  after_results_simp
  rfl

theorem host1_main_v32 (W : Valuation τ sig (Elt F)) :
    (StableHlo.after hostOps1 W main_v32 : (⟨S1x64, .f32⟩ : BufTy).Contents (Elt F)) = shapeCast S1x64 (W main_arg6) shapeCasts_S64_S1x64 := by
  dsimp only [hostOps1]
  after_results_simp
  rfl

theorem host1_main_v33 (W : Valuation τ sig (Elt F)) :
    (StableHlo.after hostOps1 W main_v33 : (⟨S1x64, .f32⟩ : BufTy).Contents (Elt F)) = shapeCast S1x64 (W main_arg7) shapeCasts_S64_S1x64 := by
  dsimp only [hostOps1]
  after_results_simp
  rfl

theorem host1_main_v34 (W : Valuation τ sig (Elt F)) :
    (StableHlo.after hostOps1 W main_v34 : (⟨S1x64, .f32⟩ : BufTy).Contents (Elt F)) = shapeCast S1x64 (W main_arg8) shapeCasts_S64_S1x64 := by
  dsimp only [hostOps1]
  after_results_simp
  rfl

set_option maxHeartbeats 2000000 in
theorem host2_agg (W : Valuation τ sig (Elt F)) :
    (StableHlo.after hostOps2 W main_v45 : (⟨S65536x64, .f32⟩ : BufTy).Contents (Elt F)) = aggOf (W main_v3) (W main_v6) (W main_v35) := by
  dsimp only [hostOps2]
  after_results_simp
  unfold aggOf gidxOf
  rfl

theorem host2_main_v46 (W : Valuation τ sig (Elt F)) :
    (StableHlo.after hostOps2 W main_v46 : (⟨S1x64, .f32⟩ : BufTy).Contents (Elt F)) = shapeCast S1x64 (W main_arg10) shapeCasts_S64_S1x64 := by
  dsimp only [hostOps2]
  after_results_simp
  rfl

theorem host2_main_v47 (W : Valuation τ sig (Elt F)) :
    (StableHlo.after hostOps2 W main_v47 : (⟨S1x64, .f32⟩ : BufTy).Contents (Elt F)) = shapeCast S1x64 (W main_arg11) shapeCasts_S64_S1x64 := by
  dsimp only [hostOps2]
  after_results_simp
  rfl

theorem host2_main_v48 (W : Valuation τ sig (Elt F)) :
    (StableHlo.after hostOps2 W main_v48 : (⟨S1x64, .f32⟩ : BufTy).Contents (Elt F)) = shapeCast S1x64 (W main_arg12) shapeCasts_S64_S1x64 := by
  dsimp only [hostOps2]
  after_results_simp
  rfl

theorem host2_main_v49 (W : Valuation τ sig (Elt F)) :
    (StableHlo.after hostOps2 W main_v49 : (⟨S1x64, .f32⟩ : BufTy).Contents (Elt F)) = shapeCast S1x64 (W main_arg13) shapeCasts_S64_S1x64 := by
  dsimp only [hostOps2]
  after_results_simp
  rfl

theorem host2_main_v50 (W : Valuation τ sig (Elt F)) :
    (StableHlo.after hostOps2 W main_v50 : (⟨S1x64, .f32⟩ : BufTy).Contents (Elt F)) = shapeCast S1x64 (W main_arg14) shapeCasts_S64_S1x64 := by
  dsimp only [hostOps2]
  after_results_simp
  rfl

set_option maxHeartbeats 2000000 in
theorem host3_agg (W : Valuation τ sig (Elt F)) :
    (StableHlo.after hostOps3 W main_v61 : (⟨S65536x64, .f32⟩ : BufTy).Contents (Elt F)) = aggOf (W main_v3) (W main_v6) (W main_v51) := by
  dsimp only [hostOps3]
  after_results_simp
  unfold aggOf gidxOf
  rfl

theorem host3_main_v62 (W : Valuation τ sig (Elt F)) :
    (StableHlo.after hostOps3 W main_v62 : (⟨S1x64, .f32⟩ : BufTy).Contents (Elt F)) = shapeCast S1x64 (W main_arg16) shapeCasts_S64_S1x64 := by
  dsimp only [hostOps3]
  after_results_simp
  rfl

theorem host3_main_v63 (W : Valuation τ sig (Elt F)) :
    (StableHlo.after hostOps3 W main_v63 : (⟨S1x64, .f32⟩ : BufTy).Contents (Elt F)) = shapeCast S1x64 (W main_arg17) shapeCasts_S64_S1x64 := by
  dsimp only [hostOps3]
  after_results_simp
  rfl

theorem host3_main_v64 (W : Valuation τ sig (Elt F)) :
    (StableHlo.after hostOps3 W main_v64 : (⟨S1x64, .f32⟩ : BufTy).Contents (Elt F)) = shapeCast S1x64 (W main_arg18) shapeCasts_S64_S1x64 := by
  dsimp only [hostOps3]
  after_results_simp
  rfl

theorem host3_main_v65 (W : Valuation τ sig (Elt F)) :
    (StableHlo.after hostOps3 W main_v65 : (⟨S1x64, .f32⟩ : BufTy).Contents (Elt F)) = shapeCast S1x64 (W main_arg19) shapeCasts_S64_S1x64 := by
  dsimp only [hostOps3]
  after_results_simp
  rfl

theorem host3_main_v66 (W : Valuation τ sig (Elt F)) :
    (StableHlo.after hostOps3 W main_v66 : (⟨S1x64, .f32⟩ : BufTy).Contents (Elt F)) = shapeCast S1x64 (W main_arg20) shapeCasts_S64_S1x64 := by
  dsimp only [hostOps3]
  after_results_simp
  rfl

theorem host3_main_v67 (W : Valuation τ sig (Elt F)) :
    (StableHlo.after hostOps3 W main_v67 : (⟨S1x64, .f32⟩ : BufTy).Contents (Elt F)) = shapeCast S1x64 (W main_arg22) shapeCasts_S64_S1x64 := by
  dsimp only [hostOps3]
  after_results_simp
  rfl

theorem V4_src (c : Dev nD) : (V4 m outs c main_v3 : (⟨S1114112, .i32⟩ : BufTy).Contents (Elt F)) = srcTerm (m ((c : Thread nD τ).loc main_arg1)) :=
  (V4_of m outs c main_v3 (by decide)).trans <| V3_src m c
theorem V4_dst (c : Dev nD) : (V4 m outs c main_v6 : (⟨S1114112, .i32⟩ : BufTy).Contents (Elt F)) = dstTerm (m ((c : Thread nD τ).loc main_arg1)) :=
  (V4_of m outs c main_v6 (by decide)).trans <| V3_dst m c
theorem V4_out (c : Dev nD) : V4 m outs c main_v19 = outs 4 main_v19 c :=
  Function.update_self _ _ _

theorem V5_agg (c : Dev nD) :
    (V5 m outs c main_v29 : (⟨S65536x64, .f32⟩ : BufTy).Contents (Elt F)) = aggTerm (m ((c : Thread nD τ).loc main_arg1)) (outs 4 main_v19 c) :=
  (host1_agg (V4 m outs c)).trans (by rw [V4_src m outs c, V4_dst m outs c, V4_out m outs c]; rfl)
theorem V5_main_v30 (c : Dev nD) :
    (V5 m outs c main_v30 : (⟨S1x64, .f32⟩ : BufTy).Contents (Elt F)) = shapeCast S1x64 (m ((c : Thread nD τ).loc main_arg4)) shapeCasts_S64_S1x64 :=
  (host1_main_v30 (V4 m outs c)).trans (congrArg (fun b : (⟨S64, .f32⟩ : BufTy).Contents (Elt F) => shapeCast S1x64 b shapeCasts_S64_S1x64)
    (V4_kept m outs c main_arg4 (by decide)))
theorem V5_main_v31 (c : Dev nD) :
    (V5 m outs c main_v31 : (⟨S1x64, .f32⟩ : BufTy).Contents (Elt F)) = shapeCast S1x64 (m ((c : Thread nD τ).loc main_arg5)) shapeCasts_S64_S1x64 :=
  (host1_main_v31 (V4 m outs c)).trans (congrArg (fun b : (⟨S64, .f32⟩ : BufTy).Contents (Elt F) => shapeCast S1x64 b shapeCasts_S64_S1x64)
    (V4_kept m outs c main_arg5 (by decide)))
theorem V5_main_v32 (c : Dev nD) :
    (V5 m outs c main_v32 : (⟨S1x64, .f32⟩ : BufTy).Contents (Elt F)) = shapeCast S1x64 (m ((c : Thread nD τ).loc main_arg6)) shapeCasts_S64_S1x64 :=
  (host1_main_v32 (V4 m outs c)).trans (congrArg (fun b : (⟨S64, .f32⟩ : BufTy).Contents (Elt F) => shapeCast S1x64 b shapeCasts_S64_S1x64)
    (V4_kept m outs c main_arg6 (by decide)))
theorem V5_main_v33 (c : Dev nD) :
    (V5 m outs c main_v33 : (⟨S1x64, .f32⟩ : BufTy).Contents (Elt F)) = shapeCast S1x64 (m ((c : Thread nD τ).loc main_arg7)) shapeCasts_S64_S1x64 :=
  (host1_main_v33 (V4 m outs c)).trans (congrArg (fun b : (⟨S64, .f32⟩ : BufTy).Contents (Elt F) => shapeCast S1x64 b shapeCasts_S64_S1x64)
    (V4_kept m outs c main_arg7 (by decide)))
theorem V5_main_v34 (c : Dev nD) :
    (V5 m outs c main_v34 : (⟨S1x64, .f32⟩ : BufTy).Contents (Elt F)) = shapeCast S1x64 (m ((c : Thread nD τ).loc main_arg8)) shapeCasts_S64_S1x64 :=
  (host1_main_v34 (V4 m outs c)).trans (congrArg (fun b : (⟨S64, .f32⟩ : BufTy).Contents (Elt F) => shapeCast S1x64 b shapeCasts_S64_S1x64)
    (V4_kept m outs c main_arg8 (by decide)))
theorem V5_disCol (c : Dev nD) :
    (V5 m outs c main_v17 : (⟨S65536x1, .f32⟩ : BufTy).Contents (Elt F)) = shapeCast S65536x1 (disTerm (m ((c : Thread nD τ).loc main_arg1))) shapeCasts_S65536_S65536x1 :=
  (V5_of m outs c main_v17 (by decide)).trans <| (V4_of m outs c main_v17 (by decide)).trans <| kdisCol m c
theorem V5_main_arg9 (c : Dev nD) : V5 m outs c main_arg9 = m ((c : Thread nD τ).loc main_arg9) :=
  (V5_of m outs c main_arg9 (by decide)).trans <| V4_kept m outs c main_arg9 (by decide)

theorem V6_src (c : Dev nD) : (V6 m outs c main_v3 : (⟨S1114112, .i32⟩ : BufTy).Contents (Elt F)) = srcTerm (m ((c : Thread nD τ).loc main_arg1)) :=
  (V6_of m outs c main_v3 (by decide)).trans <| (V5_of m outs c main_v3 (by decide)).trans <| (V4_of m outs c main_v3 (by decide)).trans <| V3_src m c
theorem V6_dst (c : Dev nD) : (V6 m outs c main_v6 : (⟨S1114112, .i32⟩ : BufTy).Contents (Elt F)) = dstTerm (m ((c : Thread nD τ).loc main_arg1)) :=
  (V6_of m outs c main_v6 (by decide)).trans <| (V5_of m outs c main_v6 (by decide)).trans <| (V4_of m outs c main_v6 (by decide)).trans <| V3_dst m c
theorem V6_out (c : Dev nD) : V6 m outs c main_v35 = outs 6 main_v35 c :=
  Function.update_self _ _ _

theorem V7_agg (c : Dev nD) :
    (V7 m outs c main_v45 : (⟨S65536x64, .f32⟩ : BufTy).Contents (Elt F)) = aggTerm (m ((c : Thread nD τ).loc main_arg1)) (outs 6 main_v35 c) :=
  (host2_agg (V6 m outs c)).trans (by rw [V6_src m outs c, V6_dst m outs c, V6_out m outs c]; rfl)
theorem V7_main_v46 (c : Dev nD) :
    (V7 m outs c main_v46 : (⟨S1x64, .f32⟩ : BufTy).Contents (Elt F)) = shapeCast S1x64 (m ((c : Thread nD τ).loc main_arg10)) shapeCasts_S64_S1x64 :=
  (host2_main_v46 (V6 m outs c)).trans (congrArg (fun b : (⟨S64, .f32⟩ : BufTy).Contents (Elt F) => shapeCast S1x64 b shapeCasts_S64_S1x64)
    (V6_kept m outs c main_arg10 (by decide)))
theorem V7_main_v47 (c : Dev nD) :
    (V7 m outs c main_v47 : (⟨S1x64, .f32⟩ : BufTy).Contents (Elt F)) = shapeCast S1x64 (m ((c : Thread nD τ).loc main_arg11)) shapeCasts_S64_S1x64 :=
  (host2_main_v47 (V6 m outs c)).trans (congrArg (fun b : (⟨S64, .f32⟩ : BufTy).Contents (Elt F) => shapeCast S1x64 b shapeCasts_S64_S1x64)
    (V6_kept m outs c main_arg11 (by decide)))
theorem V7_main_v48 (c : Dev nD) :
    (V7 m outs c main_v48 : (⟨S1x64, .f32⟩ : BufTy).Contents (Elt F)) = shapeCast S1x64 (m ((c : Thread nD τ).loc main_arg12)) shapeCasts_S64_S1x64 :=
  (host2_main_v48 (V6 m outs c)).trans (congrArg (fun b : (⟨S64, .f32⟩ : BufTy).Contents (Elt F) => shapeCast S1x64 b shapeCasts_S64_S1x64)
    (V6_kept m outs c main_arg12 (by decide)))
theorem V7_main_v49 (c : Dev nD) :
    (V7 m outs c main_v49 : (⟨S1x64, .f32⟩ : BufTy).Contents (Elt F)) = shapeCast S1x64 (m ((c : Thread nD τ).loc main_arg13)) shapeCasts_S64_S1x64 :=
  (host2_main_v49 (V6 m outs c)).trans (congrArg (fun b : (⟨S64, .f32⟩ : BufTy).Contents (Elt F) => shapeCast S1x64 b shapeCasts_S64_S1x64)
    (V6_kept m outs c main_arg13 (by decide)))
theorem V7_main_v50 (c : Dev nD) :
    (V7 m outs c main_v50 : (⟨S1x64, .f32⟩ : BufTy).Contents (Elt F)) = shapeCast S1x64 (m ((c : Thread nD τ).loc main_arg14)) shapeCasts_S64_S1x64 :=
  (host2_main_v50 (V6 m outs c)).trans (congrArg (fun b : (⟨S64, .f32⟩ : BufTy).Contents (Elt F) => shapeCast S1x64 b shapeCasts_S64_S1x64)
    (V6_kept m outs c main_arg14 (by decide)))
theorem V7_disCol (c : Dev nD) :
    (V7 m outs c main_v17 : (⟨S65536x1, .f32⟩ : BufTy).Contents (Elt F)) = shapeCast S65536x1 (disTerm (m ((c : Thread nD τ).loc main_arg1))) shapeCasts_S65536_S65536x1 :=
  (V7_of m outs c main_v17 (by decide)).trans <| (V6_of m outs c main_v17 (by decide)).trans <| (V5_of m outs c main_v17 (by decide)).trans <| (V4_of m outs c main_v17 (by decide)).trans <| kdisCol m c
theorem V7_main_arg15 (c : Dev nD) : V7 m outs c main_arg15 = m ((c : Thread nD τ).loc main_arg15) :=
  (V7_of m outs c main_arg15 (by decide)).trans <| V6_kept m outs c main_arg15 (by decide)

theorem V8_src (c : Dev nD) : (V8 m outs c main_v3 : (⟨S1114112, .i32⟩ : BufTy).Contents (Elt F)) = srcTerm (m ((c : Thread nD τ).loc main_arg1)) :=
  (V8_of m outs c main_v3 (by decide)).trans <| (V7_of m outs c main_v3 (by decide)).trans <| (V6_of m outs c main_v3 (by decide)).trans <| (V5_of m outs c main_v3 (by decide)).trans <| (V4_of m outs c main_v3 (by decide)).trans <| V3_src m c
theorem V8_dst (c : Dev nD) : (V8 m outs c main_v6 : (⟨S1114112, .i32⟩ : BufTy).Contents (Elt F)) = dstTerm (m ((c : Thread nD τ).loc main_arg1)) :=
  (V8_of m outs c main_v6 (by decide)).trans <| (V7_of m outs c main_v6 (by decide)).trans <| (V6_of m outs c main_v6 (by decide)).trans <| (V5_of m outs c main_v6 (by decide)).trans <| (V4_of m outs c main_v6 (by decide)).trans <| V3_dst m c
theorem V8_out (c : Dev nD) : V8 m outs c main_v51 = outs 8 main_v51 c :=
  Function.update_self _ _ _

theorem V9_agg (c : Dev nD) :
    (V9 m outs c main_v61 : (⟨S65536x64, .f32⟩ : BufTy).Contents (Elt F)) = aggTerm (m ((c : Thread nD τ).loc main_arg1)) (outs 8 main_v51 c) :=
  (host3_agg (V8 m outs c)).trans (by rw [V8_src m outs c, V8_dst m outs c, V8_out m outs c]; rfl)
theorem V9_main_v62 (c : Dev nD) :
    (V9 m outs c main_v62 : (⟨S1x64, .f32⟩ : BufTy).Contents (Elt F)) = shapeCast S1x64 (m ((c : Thread nD τ).loc main_arg16)) shapeCasts_S64_S1x64 :=
  (host3_main_v62 (V8 m outs c)).trans (congrArg (fun b : (⟨S64, .f32⟩ : BufTy).Contents (Elt F) => shapeCast S1x64 b shapeCasts_S64_S1x64)
    (V8_kept m outs c main_arg16 (by decide)))
theorem V9_main_v63 (c : Dev nD) :
    (V9 m outs c main_v63 : (⟨S1x64, .f32⟩ : BufTy).Contents (Elt F)) = shapeCast S1x64 (m ((c : Thread nD τ).loc main_arg17)) shapeCasts_S64_S1x64 :=
  (host3_main_v63 (V8 m outs c)).trans (congrArg (fun b : (⟨S64, .f32⟩ : BufTy).Contents (Elt F) => shapeCast S1x64 b shapeCasts_S64_S1x64)
    (V8_kept m outs c main_arg17 (by decide)))
theorem V9_main_v64 (c : Dev nD) :
    (V9 m outs c main_v64 : (⟨S1x64, .f32⟩ : BufTy).Contents (Elt F)) = shapeCast S1x64 (m ((c : Thread nD τ).loc main_arg18)) shapeCasts_S64_S1x64 :=
  (host3_main_v64 (V8 m outs c)).trans (congrArg (fun b : (⟨S64, .f32⟩ : BufTy).Contents (Elt F) => shapeCast S1x64 b shapeCasts_S64_S1x64)
    (V8_kept m outs c main_arg18 (by decide)))
theorem V9_main_v65 (c : Dev nD) :
    (V9 m outs c main_v65 : (⟨S1x64, .f32⟩ : BufTy).Contents (Elt F)) = shapeCast S1x64 (m ((c : Thread nD τ).loc main_arg19)) shapeCasts_S64_S1x64 :=
  (host3_main_v65 (V8 m outs c)).trans (congrArg (fun b : (⟨S64, .f32⟩ : BufTy).Contents (Elt F) => shapeCast S1x64 b shapeCasts_S64_S1x64)
    (V8_kept m outs c main_arg19 (by decide)))
theorem V9_main_v66 (c : Dev nD) :
    (V9 m outs c main_v66 : (⟨S1x64, .f32⟩ : BufTy).Contents (Elt F)) = shapeCast S1x64 (m ((c : Thread nD τ).loc main_arg20)) shapeCasts_S64_S1x64 :=
  (host3_main_v66 (V8 m outs c)).trans (congrArg (fun b : (⟨S64, .f32⟩ : BufTy).Contents (Elt F) => shapeCast S1x64 b shapeCasts_S64_S1x64)
    (V8_kept m outs c main_arg20 (by decide)))
theorem V9_main_v67 (c : Dev nD) :
    (V9 m outs c main_v67 : (⟨S1x64, .f32⟩ : BufTy).Contents (Elt F)) = shapeCast S1x64 (m ((c : Thread nD τ).loc main_arg22)) shapeCasts_S64_S1x64 :=
  (host3_main_v67 (V8 m outs c)).trans (congrArg (fun b : (⟨S64, .f32⟩ : BufTy).Contents (Elt F) => shapeCast S1x64 b shapeCasts_S64_S1x64)
    (V8_kept m outs c main_arg22 (by decide)))
theorem V9_disCol (c : Dev nD) :
    (V9 m outs c main_v17 : (⟨S65536x1, .f32⟩ : BufTy).Contents (Elt F)) = shapeCast S65536x1 (disTerm (m ((c : Thread nD τ).loc main_arg1))) shapeCasts_S65536_S65536x1 :=
  (V9_of m outs c main_v17 (by decide)).trans <| (V8_of m outs c main_v17 (by decide)).trans <| (V7_of m outs c main_v17 (by decide)).trans <| (V6_of m outs c main_v17 (by decide)).trans <| (V5_of m outs c main_v17 (by decide)).trans <| (V4_of m outs c main_v17 (by decide)).trans <| kdisCol m c
theorem V9_main_arg21 (c : Dev nD) : V9 m outs c main_arg21 = m ((c : Thread nD τ).loc main_arg21) :=
  (V9_of m outs c main_arg21 (by decide)).trans <| V8_kept m outs c main_arg21 (by decide)
theorem V9_batchCol (c : Dev nD) :
    (V9 m outs c main_v18 : (⟨S65536x1, .i32⟩ : BufTy).Contents (Elt F)) = shapeCast S65536x1 (m ((c : Thread nD τ).loc main_arg2)) shapeCasts_S65536_S65536x1 :=
  (V9_of m outs c main_v18 (by decide)).trans <| (V8_of m outs c main_v18 (by decide)).trans <| (V7_of m outs c main_v18 (by decide)).trans <| (V6_of m outs c main_v18 (by decide)).trans <| (V5_of m outs c main_v18 (by decide)).trans <| (V4_of m outs c main_v18 (by decide)).trans <| kbatchCol m c

theorem V10_out (c : Dev nD) : V10 m outs c main_v68 = outs 10 main_v68 c :=
  Function.update_self _ _ _

end Cert.KernelIdeal.HandVal
-- ==== Proof.Val.Spec.lean ====
import proofs.«431363_j22273700397650_3_alg».proof.KernelIdeal
import Idealize.ShloMosaic.PureOps.Ideal
import Idealize.ShloMosaic.Lib.ValueIdx

noncomputable section

namespace Cert.KernelIdeal.HandVal

open Cert.KernelIdeal
open Idealize.ShloMosaic Idealize.ShloMosaic.ValueIdx

def bnrelu (s : S65536x64.Idx → EReal) (d : S65536x1.Idx → EReal) (b rv rm g be : S1x64.Idx → EReal) (n : Fin 65536) (c : Fin 64) : EReal :=
  max ((((s (ix2 n c) * d (ix2 n (0 : Fin 1)) + b (ix2 (0 : Fin 1) c)) - rm (ix2 (0 : Fin 1) c))
          * Ideal.rsqrt (rv (ix2 (0 : Fin 1) c) + Ideal.ofBits .f32 0x3727C5AC#32)) * g (ix2 (0 : Fin 1) c) + be (ix2 (0 : Fin 1) c))
      (Ideal.ofBits .f32 0x00000000#32)

def G0 (x : S65536x64.Idx → EReal) (W : S64x64.Idx → EReal) (d : S65536x1.Idx → EReal) : S65536x64.Idx → EReal := fun i =>
  let n : Fin 65536 := i 0
  let q : Fin 64 := i 1
  (∑ j : Fin 64, x (ix2 n j) * W (ix2 j q)) * d (ix2 n (0 : Fin 1))

theorem G0_apply (x : S65536x64.Idx → EReal) (W : S64x64.Idx → EReal) (d : S65536x1.Idx → EReal) (n : Fin 65536) (q : Fin 64) :
    G0 x W d (ix2 n q) = (∑ j : Fin 64, x (ix2 n j) * W (ix2 j q)) * d (ix2 n (0 : Fin 1)) := rfl

def G1 (s : S65536x64.Idx → EReal) (d : S65536x1.Idx → EReal) (b g be rm rv : S1x64.Idx → EReal) (W : S64x64.Idx → EReal) :
    S65536x64.Idx → EReal := fun i =>
  let n : Fin 65536 := i 0
  let q : Fin 64 := i 1
  (∑ k : Fin 64, bnrelu s d b rv rm g be n k * W (ix2 k q)) * d (ix2 n (0 : Fin 1))

theorem G1_apply (s : S65536x64.Idx → EReal) (d : S65536x1.Idx → EReal) (b g be rm rv : S1x64.Idx → EReal) (W : S64x64.Idx → EReal)
    (n : Fin 65536) (q : Fin 64) :
    G1 s d b g be rm rv W (ix2 n q) = (∑ k : Fin 64, bnrelu s d b rv rm g be n k * W (ix2 k q)) * d (ix2 n (0 : Fin 1)) := rfl

def oh (ids : S65536x1.Idx → BitVec 32) (n : Fin 65536) (q : Fin 64) : EReal :=
  if ids (ix2 n (0 : Fin 1)) = BitVec.ofNat 32 q.val then 1 else 0

def G3 (s : S65536x64.Idx → EReal) (d : S65536x1.Idx → EReal) (b g be rm rv : S1x64.Idx → EReal) (ids : S65536x1.Idx → BitVec 32)
    (Wp : S64x64.Idx → EReal) (bp : S1x64.Idx → EReal) : S64x64.Idx → EReal := fun i =>
  let q : Fin 64 := i 0
  let c : Fin 64 := i 1
  (∑ k : Fin 64, Ideal.div (∑ n : Fin 65536, oh ids n q * bnrelu s d b rv rm g be n k)
        (max (∑ n : Fin 65536, oh ids n q) (Ideal.ofBits .f32 0x3F800000#32)) * Wp (ix2 k c))
    + bp (ix2 (0 : Fin 1) c)

theorem G3_apply (s : S65536x64.Idx → EReal) (d : S65536x1.Idx → EReal) (b g be rm rv : S1x64.Idx → EReal) (ids : S65536x1.Idx → BitVec 32)
    (Wp : S64x64.Idx → EReal) (bp : S1x64.Idx → EReal) (q c : Fin 64) :
    G3 s d b g be rm rv ids Wp bp (ix2 q c)
      = (∑ k : Fin 64, Ideal.div (∑ n : Fin 65536, oh ids n q * bnrelu s d b rv rm g be n k)
            (max (∑ n : Fin 65536, oh ids n q) (Ideal.ofBits .f32 0x3F800000#32)) * Wp (ix2 k c))
          + bp (ix2 (0 : Fin 1) c) := rfl

end Cert.KernelIdeal.HandVal

end
-- ==== Proof.Val.KVal.lean ====
import proofs.«431363_j22273700397650_3_alg».proof.Proof.Val.KHost
import proofs.«431363_j22273700397650_3_alg».proof.Proof.Val.Spec

noncomputable section

namespace Cert.KernelIdeal.HandVal

open Cert.KernelIdeal Cert.KernelIdeal.Gen
open Idealize.ShloMosaic

def disCol (x1 : S2x1048576.Idx → BitVec 32) : S65536x1.Idx → EReal :=
  shapeCast S65536x1 (disTerm (F := Ideal) x1) shapeCasts_S65536_S65536x1

def rowOf (x : S64.Idx → EReal) : S1x64.Idx → EReal := shapeCast S1x64 x shapeCasts_S64_S1x64

def idsCol (x2 : S65536.Idx → BitVec 32) : S65536x1.Idx → BitVec 32 := shapeCast S65536x1 x2 shapeCasts_S65536_S65536x1

def H0 (x0 : S65536x64.Idx → EReal) (x1 : S2x1048576.Idx → BitVec 32) (x3 : S64x64.Idx → EReal) : S65536x64.Idx → EReal :=
  G0 x0 x3 (disCol x1)

def H1 (x0 : S65536x64.Idx → EReal) (x1 : S2x1048576.Idx → BitVec 32) (x3 : S64x64.Idx → EReal)
    (x4 x5 x6 x7 x8 : S64.Idx → EReal) (x9 : S64x64.Idx → EReal) : S65536x64.Idx → EReal :=
  G1 (aggTerm (F := Ideal) x1 (H0 x0 x1 x3)) (disCol x1) (rowOf x4) (rowOf x5) (rowOf x6) (rowOf x7) (rowOf x8) x9

def H2 (x0 : S65536x64.Idx → EReal) (x1 : S2x1048576.Idx → BitVec 32) (x3 : S64x64.Idx → EReal)
    (x4 x5 x6 x7 x8 : S64.Idx → EReal) (x9 : S64x64.Idx → EReal)
    (x10 x11 x12 x13 x14 : S64.Idx → EReal) (x15 : S64x64.Idx → EReal) : S65536x64.Idx → EReal :=
  G1 (aggTerm (F := Ideal) x1 (H1 x0 x1 x3 x4 x5 x6 x7 x8 x9)) (disCol x1) (rowOf x10) (rowOf x11) (rowOf x12) (rowOf x13) (rowOf x14) x15

def KVal (x0 : S65536x64.Idx → EReal) (x1 : S2x1048576.Idx → BitVec 32) (x2 : S65536.Idx → BitVec 32) (x3 : S64x64.Idx → EReal)
    (x4 x5 x6 x7 x8 : S64.Idx → EReal) (x9 : S64x64.Idx → EReal)
    (x10 x11 x12 x13 x14 : S64.Idx → EReal) (x15 : S64x64.Idx → EReal)
    (x16 x17 x18 x19 x20 : S64.Idx → EReal) (x21 : S64x64.Idx → EReal) (x22 : S64.Idx → EReal) : S64x64.Idx → EReal :=
  G3 (aggTerm (F := Ideal) x1 (H2 x0 x1 x3 x4 x5 x6 x7 x8 x9 x10 x11 x12 x13 x14 x15)) (disCol x1)
    (rowOf x16) (rowOf x17) (rowOf x18) (rowOf x19) (rowOf x20) (idsCol x2) x21 (rowOf x22)

end Cert.KernelIdeal.HandVal

end
-- ==== Proof.LibColumn.lean ====
import Idealize.ShloMosaic.Lib.Pipeline.Value
import Idealize.ShloMosaic.Lib.ValueIdx

namespace Cert.LibColumn

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Val.Payloads.lean ====
import proofs.«431363_j22273700397650_3_alg».proof.Proof.Gen.KernelIdeal.Skeleton
import proofs.«431363_j22273700397650_3_alg».proof.Proof.LibColumn
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.HandVal

open Cert.KernelIdeal Cert.KernelIdeal.Gen
open Idealize.ShloMosaic Idealize.ShloMosaic.ValueIdx Idealize.SL.Sem

theorem lhs_rows_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_rows_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_rows_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_rows_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

theorem matmul_rows_apply {φ₁ φ₂ : FTy} (prec : Option ContractPrecision) (lhs : FVec Ideal S4096x64 φ₁) (rhs : FVec Ideal S64x64 φ₂)
    (p : Fin 4096) (q : Fin 64) :
    matmul dot_S4096x64_S64x64_S4096x64_1_0_0_1_n_n prec lhs rhs (constant (F := Ideal) S4096x64 .f32 0x00000000#32) (ix2 p q)
      = ∑ k : Fin 64, lhs (ix2 p k) * rhs (ix2 k q) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 p q) ((ValueIdx.contrEquiv1 dot_S4096x64_S64x64_S4096x64_1_0_0_1_n_n 64 rfl rfl).symm k) = ix2 p k := funext fun a => Fin.ext (by
    match a with
    | ⟨0, _⟩ => exact lhs_rows_0 _ _
    | ⟨1, _⟩ => exact (lhs_rows_1 _ _).trans hk)
  have er : dot_S4096x64_S64x64_S4096x64_1_0_0_1_n_n.rhsIdx (ix2 p q) ((ValueIdx.contrEquiv1 dot_S4096x64_S64x64_S4096x64_1_0_0_1_n_n 64 rfl rfl).symm k) = ix2 k q := funext fun a => Fin.ext (by
    match a with
    | ⟨0, _⟩ => exact (rhs_rows_0 _ _).trans hk
    | ⟨1, _⟩ => exact rhs_rows_1 _ _)
  rw [el, er]

theorem lhs_pool_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
theorem lhs_pool_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem rhs_pool_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
theorem rhs_pool_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

theorem matmul_pool_apply {φ₁ φ₂ : FTy} (prec : Option ContractPrecision) (lhs : FVec Ideal S4096x64 φ₁) (rhs : FVec Ideal S4096x64 φ₂)
    (p : Fin 64) (q : Fin 64) :
    matmul dot_S4096x64_S4096x64_S64x64_0_0_1_1_n_n prec lhs rhs (constant (F := Ideal) S64x64 .f32 0x00000000#32) (ix2 p q)
      = ∑ k : Fin 4096, lhs (ix2 k p) * rhs (ix2 k q) := by
  simp only [matmul]
  rw [Ideal.matmul_constant_zero_apply, ← Equiv.sum_comp (ValueIdx.contrEquiv1 dot_S4096x64_S4096x64_S64x64_0_0_1_1_n_n 4096 rfl rfl).symm]
  refine Finset.sum_congr rfl fun k _ => ?_
  have hk := ValueIdx.contrEquiv1_symm_val dot_S4096x64_S4096x64_S64x64_0_0_1_1_n_n 4096 rfl rfl k
  have el : dot_S4096x64_S4096x64_S64x64_0_0_1_1_n_n.lhsIdx (ix2 p q) ((ValueIdx.contrEquiv1 dot_S4096x64_S4096x64_S64x64_0_0_1_1_n_n 4096 rfl rfl).symm k) = ix2 k p := funext fun a => Fin.ext (by
    match a with
    | ⟨0, _⟩ => exact (lhs_pool_0 _ _).trans hk
    | ⟨1, _⟩ => exact lhs_pool_1 _ _)
  have er : dot_S4096x64_S4096x64_S64x64_0_0_1_1_n_n.rhsIdx (ix2 p q) ((ValueIdx.contrEquiv1 dot_S4096x64_S4096x64_S64x64_0_0_1_1_n_n 4096 rfl rfl).symm k) = ix2 k q := funext fun a => Fin.ext (by
    match a with
    | ⟨0, _⟩ => exact (rhs_pool_0 _ _).trans hk
    | ⟨1, _⟩ => exact rhs_pool_1 _ _)
  rw [el, er]

theorem lhs_count_0 (i : S64x1.Idx) (q : dot_S4096x64_S4096x1_S64x1_0_0_1_1_n_n.contr.Idx) :
    (dot_S4096x64_S4096x1_S64x1_0_0_1_1_n_n.lhsIdx i q 0).val = (q ⟨0, by decide⟩).val :=
  dot_S4096x64_S4096x1_S64x1_0_0_1_1_n_n.lhsIdx_val_of_single rfl i q
theorem lhs_count_1 (i : S64x1.Idx) (q : dot_S4096x64_S4096x1_S64x1_0_0_1_1_n_n.contr.Idx) :
    (dot_S4096x64_S4096x1_S64x1_0_0_1_1_n_n.lhsIdx i q 1).val = (i 0).val := by
  unfold DotDims.lhsIdx
  rw [dif_neg (show ¬(1 : Fin S4096x64.rank) ∈ dot_S4096x64_S4096x1_S64x1_0_0_1_1_n_n.lhsBatch by decide), dif_pos (show (1 : Fin S4096x64.rank) ∈ dot_S4096x64_S4096x1_S64x1_0_0_1_1_n_n.lhsNonContracting by decide)]
  rfl
theorem rhs_count_0 (i : S64x1.Idx) (q : dot_S4096x64_S4096x1_S64x1_0_0_1_1_n_n.contr.Idx) :
    (dot_S4096x64_S4096x1_S64x1_0_0_1_1_n_n.rhsIdx i q 0).val = (q ⟨0, by decide⟩).val :=
  dot_S4096x64_S4096x1_S64x1_0_0_1_1_n_n.rhsIdx_val_of_single rfl i q
theorem rhs_count_1 (i : S64x1.Idx) (q : dot_S4096x64_S4096x1_S64x1_0_0_1_1_n_n.contr.Idx) :
    (dot_S4096x64_S4096x1_S64x1_0_0_1_1_n_n.rhsIdx i q 1).val = (i 1).val := by
  unfold DotDims.rhsIdx
  rw [dif_neg (show ¬(1 : Fin S4096x1.rank) ∈ dot_S4096x64_S4096x1_S64x1_0_0_1_1_n_n.rhsBatch by decide), dif_pos (show (1 : Fin S4096x1.rank) ∈ dot_S4096x64_S4096x1_S64x1_0_0_1_1_n_n.rhsNonContracting by decide)]
  rfl

theorem matmul_count_apply {φ₁ φ₂ : FTy} (prec : Option ContractPrecision) (lhs : FVec Ideal S4096x64 φ₁) (rhs : FVec Ideal S4096x1 φ₂)
    (p : Fin 64) (q : Fin 1) :
    matmul dot_S4096x64_S4096x1_S64x1_0_0_1_1_n_n prec lhs rhs (constant (F := Ideal) S64x1 .f32 0x00000000#32) (ix2 p q)
      = ∑ k : Fin 4096, lhs (ix2 k p) * rhs (ix2 k q) := by
  simp only [matmul]
  rw [Ideal.matmul_constant_zero_apply, ← Equiv.sum_comp (ValueIdx.contrEquiv1 dot_S4096x64_S4096x1_S64x1_0_0_1_1_n_n 4096 rfl rfl).symm]
  refine Finset.sum_congr rfl fun k _ => ?_
  have hk := ValueIdx.contrEquiv1_symm_val dot_S4096x64_S4096x1_S64x1_0_0_1_1_n_n 4096 rfl rfl k
  have el : dot_S4096x64_S4096x1_S64x1_0_0_1_1_n_n.lhsIdx (ix2 p q) ((ValueIdx.contrEquiv1 dot_S4096x64_S4096x1_S64x1_0_0_1_1_n_n 4096 rfl rfl).symm k) = ix2 k p := funext fun a => Fin.ext (by
    match a with
    | ⟨0, _⟩ => exact (lhs_count_0 _ _).trans hk
    | ⟨1, _⟩ => exact lhs_count_1 _ _)
  have er : dot_S4096x64_S4096x1_S64x1_0_0_1_1_n_n.rhsIdx (ix2 p q) ((ValueIdx.contrEquiv1 dot_S4096x64_S4096x1_S64x1_0_0_1_1_n_n 4096 rfl rfl).symm k) = ix2 k q := funext fun a => Fin.ext (by
    match a with
    | ⟨0, _⟩ => exact (rhs_count_0 _ _).trans hk
    | ⟨1, _⟩ => exact rhs_count_1 _ _)
  rw [el, er]

theorem lhs_lin_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem lhs_lin_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem rhs_lin_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
theorem rhs_lin_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

theorem matmul_lin_apply {φ₁ φ₂ : FTy} (prec : Option ContractPrecision) (lhs : FVec Ideal S64x64 φ₁) (rhs : FVec Ideal S64x64 φ₂)
    (p : Fin 64) (q : Fin 64) :
    matmul dot_S64x64_S64x64_S64x64_1_0_0_1_n_n prec lhs rhs (constant (F := Ideal) S64x64 .f32 0x00000000#32) (ix2 p q)
      = ∑ k : Fin 64, lhs (ix2 p k) * rhs (ix2 k q) := by
  simp only [matmul]
  rw [Ideal.matmul_constant_zero_apply, ← Equiv.sum_comp (ValueIdx.contrEquiv1 dot_S64x64_S64x64_S64x64_1_0_0_1_n_n 64 rfl rfl).symm]
  refine Finset.sum_congr rfl fun k _ => ?_
  have hk := ValueIdx.contrEquiv1_symm_val dot_S64x64_S64x64_S64x64_1_0_0_1_n_n 64 rfl rfl k
  have el : dot_S64x64_S64x64_S64x64_1_0_0_1_n_n.lhsIdx (ix2 p q) ((ValueIdx.contrEquiv1 dot_S64x64_S64x64_S64x64_1_0_0_1_n_n 64 rfl rfl).symm k) = ix2 p k := funext fun a => Fin.ext (by
    match a with
    | ⟨0, _⟩ => exact lhs_lin_0 _ _
    | ⟨1, _⟩ => exact (lhs_lin_1 _ _).trans hk)
  have er : dot_S64x64_S64x64_S64x64_1_0_0_1_n_n.rhsIdx (ix2 p q) ((ValueIdx.contrEquiv1 dot_S64x64_S64x64_S64x64_1_0_0_1_n_n 64 rfl rfl).symm k) = ix2 k q := funext fun a => Fin.ext (by
    match a with
    | ⟨0, _⟩ => exact (rhs_lin_0 _ _).trans hk
    | ⟨1, _⟩ => exact rhs_lin_1 _ _)
  rw [el, er]

theorem k0_pay1_apply (x : Vec Ideal S4096x64 .f32) (W : Vec Ideal S64x64 .f32) (d : Vec Ideal S4096x1 .f32) (p : Fin 4096) (q : Fin 64) :
    k0_pay1 (F := Ideal) x W d (ix2 p q) = (∑ j : Fin 64, x (ix2 p j) * W (ix2 j q)) * d (ix2 p (0 : Fin 1)) := by
  unfold k0_pay1
  rw [mulf_apply, matmul_rows_apply, shapeCast_self, Cert.LibColumn.broadcastTo_a1_ab_apply]
  rfl

theorem k3_pay7_apply (s : Vec Ideal S4096x64 .f32) (dis : Vec Ideal S4096x1 .f32) (b rv rm g be : Vec Ideal S1x64 .f32)
    (p : Fin 4096) (c : Fin 64) :
    k3_pay7 (F := Ideal) s dis b rv rm g be (ix2 p c)
      = max ((((s (ix2 p c) * dis (ix2 p (0 : Fin 1)) + b (ix2 (0 : Fin 1) c)) - rm (ix2 (0 : Fin 1) c))
              * Ideal.rsqrt (rv (ix2 (0 : Fin 1) c) + Ideal.ofBits .f32 0x3727C5AC#32)) * g (ix2 (0 : Fin 1) c) + be (ix2 (0 : Fin 1) c))
          (Ideal.ofBits .f32 0x00000000#32) := by
  unfold k3_pay7
  simp only [maximumf_apply, addf_apply, mulf_apply, subf_apply, shapeCast_self, broadcastTo_1b_ab_apply,
    Cert.LibColumn.broadcastTo_a1_ab_apply, broadcast_apply]
  rfl

theorem k1_pay2_eq (s : Vec Ideal S4096x64 .f32) (dis : Vec Ideal S4096x1 .f32) (b rv rm g be : Vec Ideal S1x64 .f32) (W : Vec Ideal S64x64 .f32) :
    k1_pay2 (F := Ideal) s dis b rv rm g be W
      = matmul dot_S4096x64_S64x64_S4096x64_1_0_0_1_n_n none (truncf .bf16 (k3_pay7 (F := Ideal) s dis b rv rm g be) bitsLt_bf16_f32)
          (truncf .bf16 W bitsLt_bf16_f32) (constant (F := Ideal) S4096x64 .f32 0x00000000#32) := rfl

theorem k1_pay2_apply (s : Vec Ideal S4096x64 .f32) (dis : Vec Ideal S4096x1 .f32) (b rv rm g be : Vec Ideal S1x64 .f32) (W : Vec Ideal S64x64 .f32)
    (p : Fin 4096) (q : Fin 64) :
    k1_pay2 (F := Ideal) s dis b rv rm g be W (ix2 p q)
      = ∑ k : Fin 64, (max ((((s (ix2 p k) * dis (ix2 p (0 : Fin 1)) + b (ix2 (0 : Fin 1) k)) - rm (ix2 (0 : Fin 1) k))
              * Ideal.rsqrt (rv (ix2 (0 : Fin 1) k) + Ideal.ofBits .f32 0x3727C5AC#32)) * g (ix2 (0 : Fin 1) k) + be (ix2 (0 : Fin 1) k))
          (Ideal.ofBits .f32 0x00000000#32)) * W (ix2 k q) := by
  rw [k1_pay2_eq, matmul_rows_apply]
  refine Finset.sum_congr rfl fun k _ => ?_
  rw [truncf_apply, truncf_apply, k3_pay7_apply]

theorem k1_pay3_apply (d : Vec Ideal S4096x1 .f32) (p : Fin 4096) (q : Fin 64) :
    k1_pay3 (F := Ideal) d (ix2 p q) = d (ix2 p (0 : Fin 1)) := by
  unfold k1_pay3
  rw [shapeCast_self, Cert.LibColumn.broadcastTo_a1_ab_apply]

theorem k1_pay1_apply (u v : FVec Ideal S4096x64 .f32) (i : S4096x64.Idx) :
    k1_pay1 (F := Ideal) u v i = u i * v i := rfl

theorem k1_store_apply (s : Vec Ideal S4096x64 .f32) (dis : Vec Ideal S4096x1 .f32) (b rv rm g be : Vec Ideal S1x64 .f32) (W : Vec Ideal S64x64 .f32)
    (d : Vec Ideal S4096x1 .f32) (p : Fin 4096) (q : Fin 64) :
    k1_pay1 (F := Ideal) (k1_pay2 (F := Ideal) s dis b rv rm g be W) (k1_pay3 (F := Ideal) d) (ix2 p q)
      = (∑ k : Fin 64, (max ((((s (ix2 p k) * dis (ix2 p (0 : Fin 1)) + b (ix2 (0 : Fin 1) k)) - rm (ix2 (0 : Fin 1) k))
              * Ideal.rsqrt (rv (ix2 (0 : Fin 1) k) + Ideal.ofBits .f32 0x3727C5AC#32)) * g (ix2 (0 : Fin 1) k) + be (ix2 (0 : Fin 1) k))
          (Ideal.ofBits .f32 0x00000000#32)) * W (ix2 k q)) * d (ix2 p (0 : Fin 1)) := by
  rw [k1_pay1_apply, k1_pay2_apply, k1_pay3_apply]

theorem k2_store_apply (s : Vec Ideal S4096x64 .f32) (dis : Vec Ideal S4096x1 .f32) (b rv rm g be : Vec Ideal S1x64 .f32) (W : Vec Ideal S64x64 .f32)
    (d : Vec Ideal S4096x1 .f32) (p : Fin 4096) (q : Fin 64) :
    k2_pay1 (F := Ideal) (k2_pay2 (F := Ideal) s dis b rv rm g be W) (k2_pay3 (F := Ideal) d) (ix2 p q)
      = (∑ k : Fin 64, (max ((((s (ix2 p k) * dis (ix2 p (0 : Fin 1)) + b (ix2 (0 : Fin 1) k)) - rm (ix2 (0 : Fin 1) k))
              * Ideal.rsqrt (rv (ix2 (0 : Fin 1) k) + Ideal.ofBits .f32 0x3727C5AC#32)) * g (ix2 (0 : Fin 1) k) + be (ix2 (0 : Fin 1) k))
          (Ideal.ofBits .f32 0x00000000#32)) * W (ix2 k q)) * d (ix2 p (0 : Fin 1)) :=
  k1_store_apply s dis b rv rm g be W d p q

theorem ofBits_one_f32 : Ideal.ofBits .f32 0x3F800000#32 = 1 := by
  simp [Ideal.ofBits, Ideal.ieee, -EReal.coe_mul]; norm_num

theorem sitofp_extui_cmpi_eq (a b : BitVec 32) :
    (FloatOps.sitofp (F := Ideal) .f32 ((IntOp.cmpi .eq a b).setWidth 32) : Ideal .f32) = if a = b then (1 : EReal) else 0 := by
  have e1 : ((1#1 : BitVec 1).setWidth 32).toInt = 1 := by decide
  have e0 : ((0#1 : BitVec 1).setWidth 32).toInt = 0 := by decide
  show ((((IntOp.cmpi .eq a b).setWidth 32).toInt : ℝ) : EReal) = _
  by_cases h : a = b
  · have hc : IntOp.cmpi .eq a b = 1#1 := by
      show BitVec.ofBool (a == b) = 1#1
      rw [beq_iff_eq.mpr h]; rfl
    rw [if_pos h, hc, e1]; simp
  · have hc : IntOp.cmpi .eq a b = 0#1 := by
      show BitVec.ofBool (a == b) = 0#1
      rw [beq_eq_false_iff_ne.mpr h]; rfl
    rw [if_neg h, hc, e0]; simp

theorem k3_pay8_apply (ids : Vec Ideal S4096x1 .i32) (r : Fin 4096) (g : Fin 64) :
    k3_pay8 (F := Ideal) ids (ix2 r g) = ids (ix2 r (0 : Fin 1)) := by
  unfold k3_pay8
  rw [shapeCast_self, Cert.LibColumn.broadcastTo_a1_ab_apply]

theorem k3_pay1_apply (io ids : IVec S4096x64 32) (i : S4096x64.Idx) :
    k3_pay1 (F := Ideal) io ids i = if ids i = io i then (1 : EReal) else 0 :=
  sitofp_extui_cmpi_eq (ids i) (io i)

theorem iota_cols_apply (r : Fin 4096) (g : Fin 64) :
    iota .tc S4096x64 32 [1] iota_S4096x64_d1_w32 (ix2 r g) = BitVec.ofNat 32 g.val :=
  iota_single_apply .tc S4096x64 32 1 iota_S4096x64_d1_w32 (ix2 r g)

theorem k3_onehot_apply (ids : Vec Ideal S4096x1 .i32) (r : Fin 4096) (g : Fin 64) :
    k3_pay1 (F := Ideal) (iota .tc S4096x64 32 [1] iota_S4096x64_d1_w32) (k3_pay8 (F := Ideal) ids) (ix2 r g)
      = if ids (ix2 r (0 : Fin 1)) = BitVec.ofNat 32 g.val then (1 : EReal) else 0 := by
  rw [k3_pay1_apply, k3_pay8_apply, iota_cols_apply]

theorem k3_pay2_apply (h : FVec Ideal S4096x64 .f32) (io ids : IVec S4096x64 32) (acc : Vec Ideal S64x64 .f32) (g c : Fin 64) :
    k3_pay2 (F := Ideal) h io ids acc (ix2 g c)
      = acc (ix2 g c) + ∑ r : Fin 4096, k3_pay1 (F := Ideal) io ids (ix2 r g) * h (ix2 r c) := by
  unfold k3_pay2
  rw [shapeCast_self, addf_apply, matmul_pool_apply]

theorem k3_sums_apply (h : FVec Ideal S4096x64 .f32) (ids : Vec Ideal S4096x1 .i32) (acc : Vec Ideal S64x64 .f32) (g c : Fin 64) :
    k3_pay2 (F := Ideal) h (iota .tc S4096x64 32 [1] iota_S4096x64_d1_w32) (k3_pay8 (F := Ideal) ids) acc (ix2 g c)
      = acc (ix2 g c) + ∑ r : Fin 4096, (if ids (ix2 r (0 : Fin 1)) = BitVec.ofNat 32 g.val then (1 : EReal) else 0) * h (ix2 r c) := by
  rw [k3_pay2_apply]
  refine congrArg (acc (ix2 g c) + ·) (Finset.sum_congr rfl fun r _ => ?_)
  rw [k3_onehot_apply]

theorem k3_pay3_apply (io ids : IVec S4096x64 32) (cnt : Vec Ideal S64x1 .f32) (g : Fin 64) (u : Fin 1) :
    k3_pay3 (F := Ideal) io ids cnt (ix2 g u)
      = cnt (ix2 g u) + ∑ r : Fin 4096, k3_pay1 (F := Ideal) io ids (ix2 r g) * Ideal.ofBits .f32 0x3F800000#32 := by
  unfold k3_pay3
  rw [shapeCast_self, addf_apply, matmul_count_apply]
  rfl

theorem k3_counts_apply (ids : Vec Ideal S4096x1 .i32) (cnt : Vec Ideal S64x1 .f32) (g : Fin 64) (u : Fin 1) :
    k3_pay3 (F := Ideal) (iota .tc S4096x64 32 [1] iota_S4096x64_d1_w32) (k3_pay8 (F := Ideal) ids) cnt (ix2 g u)
      = cnt (ix2 g u) + ∑ r : Fin 4096, (if ids (ix2 r (0 : Fin 1)) = BitVec.ofNat 32 g.val then (1 : EReal) else 0) := by
  rw [k3_pay3_apply]
  refine congrArg (cnt (ix2 g u) + ·) (Finset.sum_congr rfl fun r _ => ?_)
  rw [k3_onehot_apply, ofBits_one_f32, mul_one]

theorem k3_pay4_apply (sums : Vec Ideal S64x64 .f32) (cnt : Vec Ideal S64x1 .f32) (Wp : Vec Ideal S64x64 .f32) (bp : Vec Ideal S1x64 .f32)
    (g c : Fin 64) :
    k3_pay4 (F := Ideal) sums cnt Wp bp (ix2 g c)
      = (∑ k : Fin 64, Ideal.div (sums (ix2 g k)) (max (cnt (ix2 g (0 : Fin 1))) (Ideal.ofBits .f32 0x3F800000#32)) * Wp (ix2 k c))
          + bp (ix2 (0 : Fin 1) c) := by
  unfold k3_pay4
  rw [addf_apply, matmul_lin_apply, shapeCast_self, broadcastTo_1b_ab_apply]
  refine congrArg (· + bp (ix2 (0 : Fin 1) c)) (Finset.sum_congr rfl fun k _ => ?_)
  rw [divf_apply, Cert.LibColumn.broadcastTo_a1_ab_apply, maximumf_apply, broadcast_apply]
  rfl

theorem k3_pay5_apply (i : S64x64.Idx) : k3_pay5 (F := Ideal) i = Ideal.ofBits .f32 0x00000000#32 := by
  unfold k3_pay5
  rw [shapeCast_self]
  rfl
theorem k3_pay6_apply (i : S64x1.Idx) : k3_pay6 (F := Ideal) i = Ideal.ofBits .f32 0x00000000#32 := by
  unfold k3_pay6
  rw [shapeCast_self]
  rfl
theorem k3_pay5_eq_zero (i : S64x64.Idx) : k3_pay5 (F := Ideal) i = 0 := by rw [k3_pay5_apply, Ideal.ofBits_zero_f32]
theorem k3_pay6_eq_zero (i : S64x1.Idx) : k3_pay6 (F := Ideal) i = 0 := by rw [k3_pay6_apply, Ideal.ofBits_zero_f32]

end Cert.KernelIdeal.HandVal

end
-- ==== Proof.Val.Final0.lean ====
import proofs.«431363_j22273700397650_3_alg».proof.Proof.KI.Reg0
import proofs.«431363_j22273700397650_3_alg».proof.Proof.Val.Payloads
import proofs.«431363_j22273700397650_3_alg».proof.Proof.Val.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz0 : (![0, 0] : Fin 2 → Nat) = fun _ => 0 := funext fun a => by fin_cases a <;> rfl
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 15 ∧ win0_3.index t (1 : Fin 2) = 0 :=
  (by decide +kernel : ∀ t : Fin grid0.N, _)

theorem idx_onto0 : ∀ q0 : Fin 16, ∃ t : Fin cfg0.N, win0_3.index t = ![q0.val, 0] :=
  (by decide +kernel : ∀ q0 : Fin 16, ∃ t : Fin grid0.N, win0_3.index t = ![q0.val, 0])

def row0 (t : Fin cfg0.N) (p : Fin 4096) : Fin 65536 :=
  ⟨win0_3.index t (0 : Fin 2) * 4096 + p.val, by
    have h := (idx_facts0 t).2.2.2.2.2.2.1; have hp := p.isLt; omega⟩

theorem emb0_3 (t : Fin cfg0.N) (p : Fin 4096) (q : Fin 64) :
    ((cfg0.win 3).blk t).view.emb (ix2 p q) = (ix2 (row0 t p) q : S65536x64.Idx) := by
  obtain ⟨e0, e1, e2, e3, e4, e5, e6, e7⟩ := idx_facts0 t
  funext a; apply Fin.ext
  match a with
  | ⟨0, _⟩ => show win0_3.index t (0 : Fin 2) * 4096 + 1 * p.val = win0_3.index t (0 : Fin 2) * 4096 + p.val; omega
  | ⟨1, _⟩ => show win0_3.index t (1 : Fin 2) * 64 + 1 * q.val = q.val; omega

theorem iblk0_0_apply (c : Dev nD) (t : Fin cfg0.N) (p : Fin 4096) (j : Fin 64) :
    (iblk0 V c 0 t : Vec Ideal S4096x64 .f32) (ix2 p j) = (V c main_arg0 : S65536x64.Idx → EReal) (ix2 (row0 t p) j) := by
  obtain ⟨e0, e1, e2, e3, e4, e5, e6, e7⟩ := idx_facts0 t
  unfold iblk0
  rw [View.read_apply]
  show V c main_arg0 _ = V c main_arg0 _
  congr 1
  funext a; apply Fin.ext
  match a with
  | ⟨0, _⟩ => show win0_0.index t (0 : Fin 2) * 4096 + 1 * p.val = win0_3.index t (0 : Fin 2) * 4096 + p.val; omega
  | ⟨1, _⟩ => show win0_0.index t (1 : Fin 2) * 64 + 1 * j.val = j.val; omega

theorem iblk0_1_apply (c : Dev nD) (t : Fin cfg0.N) (j : Fin 64) (q : Fin 64) :
    (iblk0 V c 1 t : Vec Ideal S64x64 .f32) (ix2 j q) = (V c main_arg3 : S64x64.Idx → EReal) (ix2 j q) := by
  obtain ⟨e0, e1, e2, e3, e4, e5, e6, e7⟩ := idx_facts0 t
  unfold iblk0
  rw [View.read_apply]
  show V c main_arg3 _ = V c main_arg3 _
  congr 1
  funext a; apply Fin.ext
  match a with
  | ⟨0, _⟩ => show win0_1.index t (0 : Fin 2) * 64 + 1 * j.val = j.val; omega
  | ⟨1, _⟩ => show win0_1.index t (1 : Fin 2) * 64 + 1 * q.val = q.val; omega

theorem iblk0_2_apply (c : Dev nD) (t : Fin cfg0.N) (p : Fin 4096) :
    (iblk0 V c 2 t : Vec Ideal S4096x1 .f32) (ix2 p 0) = (V c main_v17 : S65536x1.Idx → EReal) (ix2 (row0 t p) 0) := by
  obtain ⟨e0, e1, e2, e3, e4, e5, e6, e7⟩ := idx_facts0 t
  unfold iblk0
  rw [View.read_apply]
  show V c main_v17 _ = V c main_v17 _
  congr 1
  funext a; apply Fin.ext
  match a with
  | ⟨0, _⟩ => show win0_2.index t (0 : Fin 2) * 4096 + 1 * p.val = win0_3.index t (0 : Fin 2) * 4096 + p.val; omega
  | ⟨1, _⟩ => show win0_2.index t (1 : Fin 2) * 1 + 1 * 0 = 0; omega
theorem flushed0_eq (c : Dev nD) (t : Fin cfg0.N) :
    (dat0 V c).flushed 3 t = ((cfg0.win 3).blk t).view.read (Elt Ideal) (G0 (V c main_arg0) (V c main_arg3) (V c main_v17)) := by
  show (cfg0.win 3).cut (grid0.coords t) ((dat0 V c).after 3 t) = _
  rw [after0_3]
  unfold out0_3
  rw [View.canon_unit_zero hz0]
  rw [View.ld_unit_zero (S := S4096x64) hz0, View.ld_unit_zero (S := S64x64) hz0, View.ld_unit_zero (S := S4096x1) hz0]
  funext (j : S4096x64.Idx)
  obtain ⟨p, q, rfl⟩ : ∃ (p : Fin 4096) (q : Fin 64), j = ix2 p q := ⟨j 0, j 1, eq_ix2 j⟩
  refine (k0_pay1_apply _ _ _ p q).trans ?_
  show _ = G0 (V c main_arg0) (V c main_arg3) (V c main_v17) (((cfg0.win 3).blk t).view.emb (ix2 p q))
  rw [emb0_3, G0_apply, iblk0_2_apply]
  congr 1
  exact Finset.sum_congr rfl fun j _ => by rw [iblk0_0_apply, iblk0_1_apply]

theorem mem_blk0_3 (t : Fin cfg0.N) (i : S65536x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v19).slice (win0_3.rect t)).set ↔ _
  rw [View.set_slice_whole, Rect.mem_set_unit]
  exact Iff.rfl

theorem covered0_3 (i : S65536x64.Idx) :
    ∃ t : Fin cfg0.N, (cfg0.win 3).flush t = true ∧ i ∈ ((cfg0.win 3).blk t).view.set := by
  have hi0 : (i 0).val < 65536 := (i 0).isLt
  have hi1 : (i 1).val < 64 := (i 1).isLt
  obtain ⟨t, ht⟩ := idx_onto0 ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 64 ≤ (i 1).val ∧ (i 1).val < win0_3.index t (1 : Fin 2) * 64 + 64; omega

theorem final0 (c : Dev nD) :
    (dat0 (F := Ideal) V c).arrAt 3 cfg0.N = G0 (V c main_arg0) (V c main_arg3) (V c main_v17) :=
  (dat0 V c).arrAt_eq_of_cover 3 _ (fun t _ => flushed0_eq V c t) covered0_3

end Cert.KernelIdeal.HandVal
-- ==== Proof.Val.Final1.lean ====
import proofs.«431363_j22273700397650_3_alg».proof.Proof.KI.Reg1
import proofs.«431363_j22273700397650_3_alg».proof.Proof.Val.Payloads
import proofs.«431363_j22273700397650_3_alg».proof.Proof.Val.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

theorem idx_rows1 : ∀ t : Fin cfg1.N, win1_0.index t (0 : Fin 2) = win1_8.index t (0 : Fin 2)
    ∧ win1_0.index t (1 : Fin 2) = 0
    ∧ win1_1.index t (0 : Fin 2) = win1_8.index t (0 : Fin 2) ∧ win1_1.index t (1 : Fin 2) = 0
    ∧ win1_8.index t (0 : Fin 2) ≤ 15 ∧ win1_8.index t (1 : Fin 2) = 0 :=
  (by decide +kernel : ∀ t : Fin grid1.N, _)

theorem idx_const1_2 : ∀ t : Fin cfg1.N, win1_2.index t (0 : Fin 2) = 0 ∧ win1_2.index t (1 : Fin 2) = 0 :=
  (by decide +kernel : ∀ t : Fin grid1.N, _)
theorem idx_const1_3 : ∀ t : Fin cfg1.N, win1_3.index t (0 : Fin 2) = 0 ∧ win1_3.index t (1 : Fin 2) = 0 :=
  (by decide +kernel : ∀ t : Fin grid1.N, _)
theorem idx_const1_4 : ∀ t : Fin cfg1.N, win1_4.index t (0 : Fin 2) = 0 ∧ win1_4.index t (1 : Fin 2) = 0 :=
  (by decide +kernel : ∀ t : Fin grid1.N, _)
theorem idx_const1_5 : ∀ t : Fin cfg1.N, win1_5.index t (0 : Fin 2) = 0 ∧ win1_5.index t (1 : Fin 2) = 0 :=
  (by decide +kernel : ∀ t : Fin grid1.N, _)
theorem idx_const1_6 : ∀ t : Fin cfg1.N, win1_6.index t (0 : Fin 2) = 0 ∧ win1_6.index t (1 : Fin 2) = 0 :=
  (by decide +kernel : ∀ t : Fin grid1.N, _)
theorem idx_const1_7 : ∀ t : Fin cfg1.N, win1_7.index t (0 : Fin 2) = 0 ∧ win1_7.index t (1 : Fin 2) = 0 :=
  (by decide +kernel : ∀ t : Fin grid1.N, _)

theorem idx_onto1 : ∀ q0 : Fin 16, ∃ t : Fin cfg1.N, win1_8.index t = ![q0.val, 0] :=
  (by decide +kernel : ∀ q0 : Fin 16, ∃ t : Fin grid1.N, win1_8.index t = ![q0.val, 0])

def row1 (t : Fin cfg1.N) (p : Fin 4096) : Fin 65536 :=
  ⟨win1_8.index t (0 : Fin 2) * 4096 + p.val, by
    have h := (idx_rows1 t).2.2.2.2.1; have hp := p.isLt; omega⟩

theorem emb1_8 (t : Fin cfg1.N) (p : Fin 4096) (q : Fin 64) :
    ((cfg1.win 8).blk t).view.emb (ix2 p q) = (ix2 (row1 t p) q : S65536x64.Idx) := by
  obtain ⟨e0, e1, e2, e3, e4, e5⟩ := idx_rows1 t
  funext a; apply Fin.ext
  match a with
  | ⟨0, _⟩ => show win1_8.index t (0 : Fin 2) * 4096 + 1 * p.val = win1_8.index t (0 : Fin 2) * 4096 + p.val; omega
  | ⟨1, _⟩ => show win1_8.index t (1 : Fin 2) * 64 + 1 * q.val = q.val; omega

theorem iblk1_0_apply (c : Dev nD) (t : Fin cfg1.N) (p : Fin 4096) (k : Fin 64) :
    (iblk1 V c 0 t : Vec Ideal S4096x64 .f32) (ix2 p k) = (V c main_v29 : S65536x64.Idx → EReal) (ix2 (row1 t p) k) := by
  obtain ⟨e0, e1, e2, e3, e4, e5⟩ := idx_rows1 t
  unfold iblk1
  rw [View.read_apply]
  show V c main_v29 _ = V c main_v29 _
  congr 1
  funext a; apply Fin.ext
  match a with
  | ⟨0, _⟩ => show win1_0.index t (0 : Fin 2) * 4096 + 1 * p.val = win1_8.index t (0 : Fin 2) * 4096 + p.val; omega
  | ⟨1, _⟩ => show win1_0.index t (1 : Fin 2) * 64 + 1 * k.val = k.val; omega

theorem iblk1_1_apply (c : Dev nD) (t : Fin cfg1.N) (p : Fin 4096) :
    (iblk1 V c 1 t : Vec Ideal S4096x1 .f32) (ix2 p (0 : Fin 1)) = (V c main_v17 : S65536x1.Idx → EReal) (ix2 (row1 t p) (0 : Fin 1)) := by
  obtain ⟨e0, e1, e2, e3, e4, e5⟩ := idx_rows1 t
  unfold iblk1
  rw [View.read_apply]
  show V c main_v17 _ = V c main_v17 _
  congr 1
  funext a; apply Fin.ext
  match a with
  | ⟨0, _⟩ => show win1_1.index t (0 : Fin 2) * 4096 + 1 * p.val = win1_8.index t (0 : Fin 2) * 4096 + p.val; omega
  | ⟨1, _⟩ => show win1_1.index t (1 : Fin 2) * 1 + 1 * 0 = 0; omega

theorem iblk1_2_apply (c : Dev nD) (t : Fin cfg1.N) (k : Fin 64) :
    (iblk1 V c 2 t : Vec Ideal S1x64 .f32) (ix2 (0 : Fin 1) k) = (V c main_v30 : S1x64.Idx → EReal) (ix2 (0 : Fin 1) k) := by
  obtain ⟨e0, e1⟩ := idx_const1_2 t
  unfold iblk1
  rw [View.read_apply]
  show V c main_v30 _ = V c main_v30 _
  congr 1
  funext a; apply Fin.ext
  match a with
  | ⟨0, _⟩ => show win1_2.index t (0 : Fin 2) * 1 + 1 * 0 = 0; omega
  | ⟨1, _⟩ => show win1_2.index t (1 : Fin 2) * 64 + 1 * k.val = k.val; omega

theorem iblk1_3_apply (c : Dev nD) (t : Fin cfg1.N) (k : Fin 64) :
    (iblk1 V c 3 t : Vec Ideal S1x64 .f32) (ix2 (0 : Fin 1) k) = (V c main_v31 : S1x64.Idx → EReal) (ix2 (0 : Fin 1) k) := by
  obtain ⟨e0, e1⟩ := idx_const1_3 t
  unfold iblk1
  rw [View.read_apply]
  show V c main_v31 _ = V c main_v31 _
  congr 1
  funext a; apply Fin.ext
  match a with
  | ⟨0, _⟩ => show win1_3.index t (0 : Fin 2) * 1 + 1 * 0 = 0; omega
  | ⟨1, _⟩ => show win1_3.index t (1 : Fin 2) * 64 + 1 * k.val = k.val; omega

theorem iblk1_4_apply (c : Dev nD) (t : Fin cfg1.N) (k : Fin 64) :
    (iblk1 V c 4 t : Vec Ideal S1x64 .f32) (ix2 (0 : Fin 1) k) = (V c main_v32 : S1x64.Idx → EReal) (ix2 (0 : Fin 1) k) := by
  obtain ⟨e0, e1⟩ := idx_const1_4 t
  unfold iblk1
  rw [View.read_apply]
  show V c main_v32 _ = V c main_v32 _
  congr 1
  funext a; apply Fin.ext
  match a with
  | ⟨0, _⟩ => show win1_4.index t (0 : Fin 2) * 1 + 1 * 0 = 0; omega
  | ⟨1, _⟩ => show win1_4.index t (1 : Fin 2) * 64 + 1 * k.val = k.val; omega

theorem iblk1_5_apply (c : Dev nD) (t : Fin cfg1.N) (k : Fin 64) :
    (iblk1 V c 5 t : Vec Ideal S1x64 .f32) (ix2 (0 : Fin 1) k) = (V c main_v33 : S1x64.Idx → EReal) (ix2 (0 : Fin 1) k) := by
  obtain ⟨e0, e1⟩ := idx_const1_5 t
  unfold iblk1
  rw [View.read_apply]
  show V c main_v33 _ = V c main_v33 _
  congr 1
  funext a; apply Fin.ext
  match a with
  | ⟨0, _⟩ => show win1_5.index t (0 : Fin 2) * 1 + 1 * 0 = 0; omega
  | ⟨1, _⟩ => show win1_5.index t (1 : Fin 2) * 64 + 1 * k.val = k.val; omega

theorem iblk1_6_apply (c : Dev nD) (t : Fin cfg1.N) (k : Fin 64) :
    (iblk1 V c 6 t : Vec Ideal S1x64 .f32) (ix2 (0 : Fin 1) k) = (V c main_v34 : S1x64.Idx → EReal) (ix2 (0 : Fin 1) k) := by
  obtain ⟨e0, e1⟩ := idx_const1_6 t
  unfold iblk1
  rw [View.read_apply]
  show V c main_v34 _ = V c main_v34 _
  congr 1
  funext a; apply Fin.ext
  match a with
  | ⟨0, _⟩ => show win1_6.index t (0 : Fin 2) * 1 + 1 * 0 = 0; omega
  | ⟨1, _⟩ => show win1_6.index t (1 : Fin 2) * 64 + 1 * k.val = k.val; omega

theorem iblk1_7_apply (c : Dev nD) (t : Fin cfg1.N) (k : Fin 64) (q : Fin 64) :
    (iblk1 V c 7 t : Vec Ideal S64x64 .f32) (ix2 k q) = (V c main_arg9 : S64x64.Idx → EReal) (ix2 k q) := by
  obtain ⟨e0, e1⟩ := idx_const1_7 t
  unfold iblk1
  rw [View.read_apply]
  show V c main_arg9 _ = V c main_arg9 _
  congr 1
  funext a; apply Fin.ext
  match a with
  | ⟨0, _⟩ => show win1_7.index t (0 : Fin 2) * 64 + 1 * k.val = k.val; omega
  | ⟨1, _⟩ => show win1_7.index t (1 : Fin 2) * 64 + 1 * q.val = q.val; omega

theorem entry1_congr (s' : Vec Ideal S4096x64 .f32) (d' : Vec Ideal S4096x1 .f32) (b' rv' rm' g' be' : Vec Ideal S1x64 .f32)
    (W' : Vec Ideal S64x64 .f32) (s : S65536x64.Idx → EReal) (d : S65536x1.Idx → EReal) (b g be rm rv : S1x64.Idx → EReal)
    (W : S64x64.Idx → EReal) (p : Fin 4096) (n : Fin 65536) (q : Fin 64)
    (hs : ∀ k : Fin 64, s' (ix2 p k) = s (ix2 n k)) (hd : d' (ix2 p (0 : Fin 1)) = d (ix2 n (0 : Fin 1)))
    (hb : ∀ k : Fin 64, b' (ix2 (0 : Fin 1) k) = b (ix2 (0 : Fin 1) k)) (hg : ∀ k : Fin 64, g' (ix2 (0 : Fin 1) k) = g (ix2 (0 : Fin 1) k))
    (hbe : ∀ k : Fin 64, be' (ix2 (0 : Fin 1) k) = be (ix2 (0 : Fin 1) k)) (hrm : ∀ k : Fin 64, rm' (ix2 (0 : Fin 1) k) = rm (ix2 (0 : Fin 1) k))
    (hrv : ∀ k : Fin 64, rv' (ix2 (0 : Fin 1) k) = rv (ix2 (0 : Fin 1) k)) (hW : ∀ k : Fin 64, W' (ix2 k q) = W (ix2 k q)) :
    (∑ k : Fin 64, (max ((((s' (ix2 p k) * d' (ix2 p (0 : Fin 1)) + b' (ix2 (0 : Fin 1) k)) - rm' (ix2 (0 : Fin 1) k))
              * Ideal.rsqrt (rv' (ix2 (0 : Fin 1) k) + Ideal.ofBits .f32 0x3727C5AC#32)) * g' (ix2 (0 : Fin 1) k) + be' (ix2 (0 : Fin 1) k))
          (Ideal.ofBits .f32 0x00000000#32)) * W' (ix2 k q)) * d' (ix2 p (0 : Fin 1))
      = G1 s d b g be rm rv W (ix2 n q) := by
  rw [G1_apply, hd]
  congr 1
  refine Finset.sum_congr rfl fun k _ => ?_
  rw [hs k, hb k, hg k, hbe k, hrm k, hrv k, hW k]
  rfl

theorem flushed1_eq (c : Dev nD) (t : Fin cfg1.N) :
    (dat1 V c).flushed 8 t = ((cfg1.win 8).blk t).view.read (Elt Ideal)
      (G1 (V c main_v29) (V c main_v17) (V c main_v30) (V c main_v31) (V c main_v32) (V c main_v33) (V c main_v34) (V c main_arg9)) := by
  show (cfg1.win 8).cut (grid1.coords t) ((dat1 V c).after 8 t) = _
  rw [after1_8]
  unfold out1_8
  rw [View.canon_unit_zero hz1]
  simp only [View.ld_unit_zero (S := S4096x64) hz1, View.ld_unit_zero (S := S4096x1) hz1, View.ld_unit_zero (S := S1x64) hz1,
    View.ld_unit_zero (S := S64x64) hz1]
  funext (j : S4096x64.Idx)
  obtain ⟨p, q, rfl⟩ : ∃ (p : Fin 4096) (q : Fin 64), j = ix2 p q := ⟨j 0, j 1, eq_ix2 j⟩
  refine (k1_store_apply _ _ _ _ _ _ _ _ _ p q).trans ?_
  show _ = G1 (V c main_v29) (V c main_v17) (V c main_v30) (V c main_v31) (V c main_v32) (V c main_v33) (V c main_v34) (V c main_arg9)
    (((cfg1.win 8).blk t).view.emb (ix2 p q))
  rw [emb1_8]
  exact entry1_congr (iblk1 V c 0 t) (iblk1 V c 1 t) (iblk1 V c 2 t) (iblk1 V c 6 t) (iblk1 V c 5 t) (iblk1 V c 3 t)
    (iblk1 V c 4 t) (iblk1 V c 7 t) (V c main_v29) (V c main_v17) (V c main_v30) (V c main_v31) (V c main_v32) (V c main_v33) (V c main_v34) (V c main_arg9)
    p (row1 t p) q (fun k => iblk1_0_apply V c t p k) (iblk1_1_apply V c t p) (fun k => iblk1_2_apply V c t k)
    (fun k => iblk1_3_apply V c t k) (fun k => iblk1_4_apply V c t k) (fun k => iblk1_5_apply V c t k)
    (fun k => iblk1_6_apply V c t k) (fun k => iblk1_7_apply V c t k q)

theorem mem_blk1_8 (t : Fin cfg1.N) (i : S65536x64.Idx) :
    i ∈ ((cfg1.win 8).blk t).view.set ↔ ∀ a : Fin 2, win1_8.index t a * S4096x64.size a ≤ (i a).val ∧ (i a).val < win1_8.index t a * S4096x64.size a + S4096x64.size a := by
  show i ∈ ((View.whole main_v35).slice (win1_8.rect t)).set ↔ _
  rw [View.set_slice_whole, Rect.mem_set_unit]
  exact Iff.rfl

theorem covered1_8 (i : S65536x64.Idx) :
    ∃ t : Fin cfg1.N, (cfg1.win 8).flush t = true ∧ i ∈ ((cfg1.win 8).blk t).view.set := by
  have hi0 : (i 0).val < 65536 := (i 0).isLt
  have hi1 : (i 1).val < 64 := (i 1).isLt
  obtain ⟨t, ht⟩ := idx_onto1 ⟨(i 0).val / 4096, by omega⟩
  have q0 : win1_8.index t (0 : Fin 2) = (i 0).val / 4096 := congrFun ht 0
  have q1 : win1_8.index t (1 : Fin 2) = 0 := congrFun ht 1
  refine ⟨t, flush1_8 t, ?_⟩
  rw [mem_blk1_8]
  intro a
  match a with
  | ⟨0, _⟩ => show win1_8.index t (0 : Fin 2) * 4096 ≤ (i 0).val ∧ (i 0).val < win1_8.index t (0 : Fin 2) * 4096 + 4096; omega
  | ⟨1, _⟩ => show win1_8.index t (1 : Fin 2) * 64 ≤ (i 1).val ∧ (i 1).val < win1_8.index t (1 : Fin 2) * 64 + 64; omega

theorem final1 (c : Dev nD) :
    (dat1 (F := Ideal) V c).arrAt 8 cfg1.N
      = G1 (V c main_v29) (V c main_v17) (V c main_v30) (V c main_v31) (V c main_v32) (V c main_v33) (V c main_v34) (V c main_arg9) :=
  (dat1 V c).arrAt_eq_of_cover 8 _ (fun t _ => flushed1_eq V c t) covered1_8

end Cert.KernelIdeal.HandVal
-- ==== Proof.Val.Final2.lean ====
import proofs.«431363_j22273700397650_3_alg».proof.Proof.KI.Reg2
import proofs.«431363_j22273700397650_3_alg».proof.Proof.Val.Payloads
import proofs.«431363_j22273700397650_3_alg».proof.Proof.Val.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

theorem idx_rows2 : ∀ t : Fin cfg2.N, win2_0.index t (0 : Fin 2) = win2_8.index t (0 : Fin 2)
    ∧ win2_0.index t (1 : Fin 2) = 0
    ∧ win2_1.index t (0 : Fin 2) = win2_8.index t (0 : Fin 2) ∧ win2_1.index t (1 : Fin 2) = 0
    ∧ win2_8.index t (0 : Fin 2) ≤ 15 ∧ win2_8.index t (1 : Fin 2) = 0 :=
  (by decide +kernel : ∀ t : Fin grid2.N, _)

theorem idx_const2_2 : ∀ t : Fin cfg2.N, win2_2.index t (0 : Fin 2) = 0 ∧ win2_2.index t (1 : Fin 2) = 0 :=
  (by decide +kernel : ∀ t : Fin grid2.N, _)
theorem idx_const2_3 : ∀ t : Fin cfg2.N, win2_3.index t (0 : Fin 2) = 0 ∧ win2_3.index t (1 : Fin 2) = 0 :=
  (by decide +kernel : ∀ t : Fin grid2.N, _)
theorem idx_const2_4 : ∀ t : Fin cfg2.N, win2_4.index t (0 : Fin 2) = 0 ∧ win2_4.index t (1 : Fin 2) = 0 :=
  (by decide +kernel : ∀ t : Fin grid2.N, _)
theorem idx_const2_5 : ∀ t : Fin cfg2.N, win2_5.index t (0 : Fin 2) = 0 ∧ win2_5.index t (1 : Fin 2) = 0 :=
  (by decide +kernel : ∀ t : Fin grid2.N, _)
theorem idx_const2_6 : ∀ t : Fin cfg2.N, win2_6.index t (0 : Fin 2) = 0 ∧ win2_6.index t (1 : Fin 2) = 0 :=
  (by decide +kernel : ∀ t : Fin grid2.N, _)
theorem idx_const2_7 : ∀ t : Fin cfg2.N, win2_7.index t (0 : Fin 2) = 0 ∧ win2_7.index t (1 : Fin 2) = 0 :=
  (by decide +kernel : ∀ t : Fin grid2.N, _)

theorem idx_onto2 : ∀ q0 : Fin 16, ∃ t : Fin cfg2.N, win2_8.index t = ![q0.val, 0] :=
  (by decide +kernel : ∀ q0 : Fin 16, ∃ t : Fin grid2.N, win2_8.index t = ![q0.val, 0])

def row2 (t : Fin cfg2.N) (p : Fin 4096) : Fin 65536 :=
  ⟨win2_8.index t (0 : Fin 2) * 4096 + p.val, by
    have h := (idx_rows2 t).2.2.2.2.1; have hp := p.isLt; omega⟩

theorem emb2_8 (t : Fin cfg2.N) (p : Fin 4096) (q : Fin 64) :
    ((cfg2.win 8).blk t).view.emb (ix2 p q) = (ix2 (row2 t p) q : S65536x64.Idx) := by
  obtain ⟨e0, e1, e2, e3, e4, e5⟩ := idx_rows2 t
  funext a; apply Fin.ext
  match a with
  | ⟨0, _⟩ => show win2_8.index t (0 : Fin 2) * 4096 + 1 * p.val = win2_8.index t (0 : Fin 2) * 4096 + p.val; omega
  | ⟨1, _⟩ => show win2_8.index t (1 : Fin 2) * 64 + 1 * q.val = q.val; omega

theorem iblk2_0_apply (c : Dev nD) (t : Fin cfg2.N) (p : Fin 4096) (k : Fin 64) :
    (iblk2 V c 0 t : Vec Ideal S4096x64 .f32) (ix2 p k) = (V c main_v45 : S65536x64.Idx → EReal) (ix2 (row2 t p) k) := by
  obtain ⟨e0, e1, e2, e3, e4, e5⟩ := idx_rows2 t
  unfold iblk2
  rw [View.read_apply]
  show V c main_v45 _ = V c main_v45 _
  congr 1
  funext a; apply Fin.ext
  match a with
  | ⟨0, _⟩ => show win2_0.index t (0 : Fin 2) * 4096 + 1 * p.val = win2_8.index t (0 : Fin 2) * 4096 + p.val; omega
  | ⟨1, _⟩ => show win2_0.index t (1 : Fin 2) * 64 + 1 * k.val = k.val; omega

theorem iblk2_1_apply (c : Dev nD) (t : Fin cfg2.N) (p : Fin 4096) :
    (iblk2 V c 1 t : Vec Ideal S4096x1 .f32) (ix2 p (0 : Fin 1)) = (V c main_v17 : S65536x1.Idx → EReal) (ix2 (row2 t p) (0 : Fin 1)) := by
  obtain ⟨e0, e1, e2, e3, e4, e5⟩ := idx_rows2 t
  unfold iblk2
  rw [View.read_apply]
  show V c main_v17 _ = V c main_v17 _
  congr 1
  funext a; apply Fin.ext
  match a with
  | ⟨0, _⟩ => show win2_1.index t (0 : Fin 2) * 4096 + 1 * p.val = win2_8.index t (0 : Fin 2) * 4096 + p.val; omega
  | ⟨1, _⟩ => show win2_1.index t (1 : Fin 2) * 1 + 1 * 0 = 0; omega

theorem iblk2_2_apply (c : Dev nD) (t : Fin cfg2.N) (k : Fin 64) :
    (iblk2 V c 2 t : Vec Ideal S1x64 .f32) (ix2 (0 : Fin 1) k) = (V c main_v46 : S1x64.Idx → EReal) (ix2 (0 : Fin 1) k) := by
  obtain ⟨e0, e1⟩ := idx_const2_2 t
  unfold iblk2
  rw [View.read_apply]
  show V c main_v46 _ = V c main_v46 _
  congr 1
  funext a; apply Fin.ext
  match a with
  | ⟨0, _⟩ => show win2_2.index t (0 : Fin 2) * 1 + 1 * 0 = 0; omega
  | ⟨1, _⟩ => show win2_2.index t (1 : Fin 2) * 64 + 1 * k.val = k.val; omega

theorem iblk2_3_apply (c : Dev nD) (t : Fin cfg2.N) (k : Fin 64) :
    (iblk2 V c 3 t : Vec Ideal S1x64 .f32) (ix2 (0 : Fin 1) k) = (V c main_v47 : S1x64.Idx → EReal) (ix2 (0 : Fin 1) k) := by
  obtain ⟨e0, e1⟩ := idx_const2_3 t
  unfold iblk2
  rw [View.read_apply]
  show V c main_v47 _ = V c main_v47 _
  congr 1
  funext a; apply Fin.ext
  match a with
  | ⟨0, _⟩ => show win2_3.index t (0 : Fin 2) * 1 + 1 * 0 = 0; omega
  | ⟨1, _⟩ => show win2_3.index t (1 : Fin 2) * 64 + 1 * k.val = k.val; omega

theorem iblk2_4_apply (c : Dev nD) (t : Fin cfg2.N) (k : Fin 64) :
    (iblk2 V c 4 t : Vec Ideal S1x64 .f32) (ix2 (0 : Fin 1) k) = (V c main_v48 : S1x64.Idx → EReal) (ix2 (0 : Fin 1) k) := by
  obtain ⟨e0, e1⟩ := idx_const2_4 t
  unfold iblk2
  rw [View.read_apply]
  show V c main_v48 _ = V c main_v48 _
  congr 1
  funext a; apply Fin.ext
  match a with
  | ⟨0, _⟩ => show win2_4.index t (0 : Fin 2) * 1 + 1 * 0 = 0; omega
  | ⟨1, _⟩ => show win2_4.index t (1 : Fin 2) * 64 + 1 * k.val = k.val; omega

theorem iblk2_5_apply (c : Dev nD) (t : Fin cfg2.N) (k : Fin 64) :
    (iblk2 V c 5 t : Vec Ideal S1x64 .f32) (ix2 (0 : Fin 1) k) = (V c main_v49 : S1x64.Idx → EReal) (ix2 (0 : Fin 1) k) := by
  obtain ⟨e0, e1⟩ := idx_const2_5 t
  unfold iblk2
  rw [View.read_apply]
  show V c main_v49 _ = V c main_v49 _
  congr 1
  funext a; apply Fin.ext
  match a with
  | ⟨0, _⟩ => show win2_5.index t (0 : Fin 2) * 1 + 1 * 0 = 0; omega
  | ⟨1, _⟩ => show win2_5.index t (1 : Fin 2) * 64 + 1 * k.val = k.val; omega

theorem iblk2_6_apply (c : Dev nD) (t : Fin cfg2.N) (k : Fin 64) :
    (iblk2 V c 6 t : Vec Ideal S1x64 .f32) (ix2 (0 : Fin 1) k) = (V c main_v50 : S1x64.Idx → EReal) (ix2 (0 : Fin 1) k) := by
  obtain ⟨e0, e1⟩ := idx_const2_6 t
  unfold iblk2
  rw [View.read_apply]
  show V c main_v50 _ = V c main_v50 _
  congr 1
  funext a; apply Fin.ext
  match a with
  | ⟨0, _⟩ => show win2_6.index t (0 : Fin 2) * 1 + 1 * 0 = 0; omega
  | ⟨1, _⟩ => show win2_6.index t (1 : Fin 2) * 64 + 1 * k.val = k.val; omega

theorem iblk2_7_apply (c : Dev nD) (t : Fin cfg2.N) (k : Fin 64) (q : Fin 64) :
    (iblk2 V c 7 t : Vec Ideal S64x64 .f32) (ix2 k q) = (V c main_arg15 : S64x64.Idx → EReal) (ix2 k q) := by
  obtain ⟨e0, e1⟩ := idx_const2_7 t
  unfold iblk2
  rw [View.read_apply]
  show V c main_arg15 _ = V c main_arg15 _
  congr 1
  funext a; apply Fin.ext
  match a with
  | ⟨0, _⟩ => show win2_7.index t (0 : Fin 2) * 64 + 1 * k.val = k.val; omega
  | ⟨1, _⟩ => show win2_7.index t (1 : Fin 2) * 64 + 1 * q.val = q.val; omega

theorem entry2_congr (s' : Vec Ideal S4096x64 .f32) (d' : Vec Ideal S4096x1 .f32) (b' rv' rm' g' be' : Vec Ideal S1x64 .f32)
    (W' : Vec Ideal S64x64 .f32) (s : S65536x64.Idx → EReal) (d : S65536x1.Idx → EReal) (b g be rm rv : S1x64.Idx → EReal)
    (W : S64x64.Idx → EReal) (p : Fin 4096) (n : Fin 65536) (q : Fin 64)
    (hs : ∀ k : Fin 64, s' (ix2 p k) = s (ix2 n k)) (hd : d' (ix2 p (0 : Fin 1)) = d (ix2 n (0 : Fin 1)))
    (hb : ∀ k : Fin 64, b' (ix2 (0 : Fin 1) k) = b (ix2 (0 : Fin 1) k)) (hg : ∀ k : Fin 64, g' (ix2 (0 : Fin 1) k) = g (ix2 (0 : Fin 1) k))
    (hbe : ∀ k : Fin 64, be' (ix2 (0 : Fin 1) k) = be (ix2 (0 : Fin 1) k)) (hrm : ∀ k : Fin 64, rm' (ix2 (0 : Fin 1) k) = rm (ix2 (0 : Fin 1) k))
    (hrv : ∀ k : Fin 64, rv' (ix2 (0 : Fin 1) k) = rv (ix2 (0 : Fin 1) k)) (hW : ∀ k : Fin 64, W' (ix2 k q) = W (ix2 k q)) :
    (∑ k : Fin 64, (max ((((s' (ix2 p k) * d' (ix2 p (0 : Fin 1)) + b' (ix2 (0 : Fin 1) k)) - rm' (ix2 (0 : Fin 1) k))
              * Ideal.rsqrt (rv' (ix2 (0 : Fin 1) k) + Ideal.ofBits .f32 0x3727C5AC#32)) * g' (ix2 (0 : Fin 1) k) + be' (ix2 (0 : Fin 1) k))
          (Ideal.ofBits .f32 0x00000000#32)) * W' (ix2 k q)) * d' (ix2 p (0 : Fin 1))
      = G1 s d b g be rm rv W (ix2 n q) := by
  rw [G1_apply, hd]
  congr 1
  refine Finset.sum_congr rfl fun k _ => ?_
  rw [hs k, hb k, hg k, hbe k, hrm k, hrv k, hW k]
  rfl

theorem flushed2_eq (c : Dev nD) (t : Fin cfg2.N) :
    (dat2 V c).flushed 8 t = ((cfg2.win 8).blk t).view.read (Elt Ideal)
      (G1 (V c main_v45) (V c main_v17) (V c main_v46) (V c main_v47) (V c main_v48) (V c main_v49) (V c main_v50) (V c main_arg15)) := by
  show (cfg2.win 8).cut (grid2.coords t) ((dat2 V c).after 8 t) = _
  rw [after2_8]
  unfold out2_8
  rw [View.canon_unit_zero hz2]
  simp only [View.ld_unit_zero (S := S4096x64) hz2, View.ld_unit_zero (S := S4096x1) hz2, View.ld_unit_zero (S := S1x64) hz2,
    View.ld_unit_zero (S := S64x64) hz2]
  funext (j : S4096x64.Idx)
  obtain ⟨p, q, rfl⟩ : ∃ (p : Fin 4096) (q : Fin 64), j = ix2 p q := ⟨j 0, j 1, eq_ix2 j⟩
  refine (k2_store_apply _ _ _ _ _ _ _ _ _ p q).trans ?_
  show _ = G1 (V c main_v45) (V c main_v17) (V c main_v46) (V c main_v47) (V c main_v48) (V c main_v49) (V c main_v50) (V c main_arg15)
    (((cfg2.win 8).blk t).view.emb (ix2 p q))
  rw [emb2_8]
  exact entry2_congr (iblk2 V c 0 t) (iblk2 V c 1 t) (iblk2 V c 2 t) (iblk2 V c 6 t) (iblk2 V c 5 t) (iblk2 V c 3 t)
    (iblk2 V c 4 t) (iblk2 V c 7 t) (V c main_v45) (V c main_v17) (V c main_v46) (V c main_v47) (V c main_v48) (V c main_v49) (V c main_v50) (V c main_arg15)
    p (row2 t p) q (fun k => iblk2_0_apply V c t p k) (iblk2_1_apply V c t p) (fun k => iblk2_2_apply V c t k)
    (fun k => iblk2_3_apply V c t k) (fun k => iblk2_4_apply V c t k) (fun k => iblk2_5_apply V c t k)
    (fun k => iblk2_6_apply V c t k) (fun k => iblk2_7_apply V c t k q)

theorem mem_blk2_8 (t : Fin cfg2.N) (i : S65536x64.Idx) :
    i ∈ ((cfg2.win 8).blk t).view.set ↔ ∀ a : Fin 2, win2_8.index t a * S4096x64.size a ≤ (i a).val ∧ (i a).val < win2_8.index t a * S4096x64.size a + S4096x64.size a := by
  show i ∈ ((View.whole main_v51).slice (win2_8.rect t)).set ↔ _
  rw [View.set_slice_whole, Rect.mem_set_unit]
  exact Iff.rfl

theorem covered2_8 (i : S65536x64.Idx) :
    ∃ t : Fin cfg2.N, (cfg2.win 8).flush t = true ∧ i ∈ ((cfg2.win 8).blk t).view.set := by
  have hi0 : (i 0).val < 65536 := (i 0).isLt
  have hi1 : (i 1).val < 64 := (i 1).isLt
  obtain ⟨t, ht⟩ := idx_onto2 ⟨(i 0).val / 4096, by omega⟩
  have q0 : win2_8.index t (0 : Fin 2) = (i 0).val / 4096 := congrFun ht 0
  have q1 : win2_8.index t (1 : Fin 2) = 0 := congrFun ht 1
  refine ⟨t, flush2_8 t, ?_⟩
  rw [mem_blk2_8]
  intro a
  match a with
  | ⟨0, _⟩ => show win2_8.index t (0 : Fin 2) * 4096 ≤ (i 0).val ∧ (i 0).val < win2_8.index t (0 : Fin 2) * 4096 + 4096; omega
  | ⟨1, _⟩ => show win2_8.index t (1 : Fin 2) * 64 ≤ (i 1).val ∧ (i 1).val < win2_8.index t (1 : Fin 2) * 64 + 64; omega

theorem final2 (c : Dev nD) :
    (dat2 (F := Ideal) V c).arrAt 8 cfg2.N
      = G1 (V c main_v45) (V c main_v17) (V c main_v46) (V c main_v47) (V c main_v48) (V c main_v49) (V c main_v50) (V c main_arg15) :=
  (dat2 V c).arrAt_eq_of_cover 8 _ (fun t _ => flushed2_eq V c t) covered2_8

end Cert.KernelIdeal.HandVal
-- ==== Proof.Val.Final3.lean ====
import proofs.«431363_j22273700397650_3_alg».proof.Proof.KI.Reg3
import proofs.«431363_j22273700397650_3_alg».proof.Proof.Val.Payloads
import proofs.«431363_j22273700397650_3_alg».proof.Proof.Val.Spec
import Idealize.ShloMosaic.PureOps.Ideal
import Idealize.ShloMosaic.Lib.ValueIdx
import Idealize.ShloMosaic.Lib.Pipeline.Value
import Mathlib.Algebra.BigOperators.Fin
import Mathlib.Logic.Equiv.Fin.Basic

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

def hot (w : BitVec 32) (g : Fin 64) : EReal := if w = BitVec.ofNat 32 g.val then 1 else 0

def act (s d b rv rm ga be : EReal) : EReal :=
  max ((((s * d + b) - rm) * Ideal.rsqrt (rv + Ideal.ofBits .f32 0x3727C5AC#32)) * ga + be) (Ideal.ofBits .f32 0x00000000#32)

def addSums (x0 : Vec Ideal S4096x64 .f32) (x1 : Vec Ideal S4096x1 .f32) (x2 x3 x4 x5 x6 : Vec Ideal S1x64 .f32)
    (x7 : Vec Ideal S4096x1 .i32) (g j : Fin 64) : EReal :=
  ∑ r : Fin 4096, hot (x7 (ix2 r (0 : Fin 1))) g
    * act (x0 (ix2 r j)) (x1 (ix2 r (0 : Fin 1))) (x2 (ix2 (0 : Fin 1) j)) (x6 (ix2 (0 : Fin 1) j)) (x5 (ix2 (0 : Fin 1) j))
        (x3 (ix2 (0 : Fin 1) j)) (x4 (ix2 (0 : Fin 1) j))

def addCount (x7 : Vec Ideal S4096x1 .i32) (g : Fin 64) : EReal := ∑ r : Fin 4096, hot (x7 (ix2 r (0 : Fin 1))) g

theorem zeros2 : (![0, 0] : Fin 2 → Nat) = fun _ => 0 := funext fun a => by fin_cases a <;> rfl

theorem sc0Step_apply (s0 : Vec Ideal S64x64 .f32) (x0 : Vec Ideal S4096x64 .f32) (x1 : Vec Ideal S4096x1 .f32)
    (x2 x3 x4 x5 x6 : Vec Ideal S1x64 .f32) (x7 : Vec Ideal S4096x1 .i32) (g j : Fin 64) :
    sc0Step (F := Ideal) s0 x0 x1 x2 x3 x4 x5 x6 x7 (ix2 g j) = s0 (ix2 g j) + addSums x0 x1 x2 x3 x4 x5 x6 x7 g j := by
  unfold sc0Step
  rw [View.canon_unit_zero zeros2]
  simp only [View.ld_unit_zero (S := S4096x64) zeros2, View.ld_unit_zero (S := S4096x1) zeros2,
    View.ld_unit_zero (S := S1x64) zeros2, View.ld_unit_zero (S := S64x64) zeros2]
  refine (k3_sums_apply _ _ _ g j).trans ?_
  unfold addSums hot act
  congr 1
  refine Finset.sum_congr rfl fun r _ => ?_
  rw [k3_pay7_apply]

theorem sc1Step_apply (s1 : Vec Ideal S64x1 .f32) (x7 : Vec Ideal S4096x1 .i32) (g : Fin 64) (u : Fin 1) :
    sc1Step (F := Ideal) s1 x7 (ix2 g u) = s1 (ix2 g u) + addCount x7 g := by
  unfold sc1Step
  rw [View.canon_unit_zero zeros2]
  simp only [View.ld_unit_zero (S := S4096x1) zeros2, View.ld_unit_zero (S := S64x1) zeros2]
  exact k3_counts_apply _ _ g u

theorem sc0Zero_apply (i : S64x64.Idx) : sc0Zero (F := Ideal) i = 0 := by
  unfold sc0Zero
  rw [View.canon_unit_zero zeros2]
  exact k3_pay5_eq_zero i

theorem sc1Zero_apply (i : S64x1.Idx) : sc1Zero (F := Ideal) i = 0 := by
  unfold sc1Zero
  rw [View.canon_unit_zero zeros2]
  exact k3_pay6_eq_zero i

variable (V : (c : Dev nD) → (b : Ref sig .tc) → Buf (Elt Ideal) ((c : Thread nD τ).loc b))

abbrev sBlk (c : Dev nD) (t : Fin cfg3.N) : Vec Ideal S4096x64 .f32 := iblk3 V c 0 t
abbrev dBlk (c : Dev nD) (t : Fin cfg3.N) : Vec Ideal S4096x1 .f32 := iblk3 V c 1 t
abbrev bBlk (c : Dev nD) (t : Fin cfg3.N) : Vec Ideal S1x64 .f32 := iblk3 V c 2 t
abbrev gaBlk (c : Dev nD) (t : Fin cfg3.N) : Vec Ideal S1x64 .f32 := iblk3 V c 3 t
abbrev beBlk (c : Dev nD) (t : Fin cfg3.N) : Vec Ideal S1x64 .f32 := iblk3 V c 4 t
abbrev rmBlk (c : Dev nD) (t : Fin cfg3.N) : Vec Ideal S1x64 .f32 := iblk3 V c 5 t
abbrev rvBlk (c : Dev nD) (t : Fin cfg3.N) : Vec Ideal S1x64 .f32 := iblk3 V c 6 t
abbrev idBlk (c : Dev nD) (t : Fin cfg3.N) : Vec Ideal S4096x1 .i32 := iblk3 V c 7 t
abbrev wpBlk (c : Dev nD) (t : Fin cfg3.N) : Vec Ideal S64x64 .f32 := iblk3 V c 8 t
abbrev bpBlk (c : Dev nD) (t : Fin cfg3.N) : Vec Ideal S1x64 .f32 := iblk3 V c 9 t

abbrev sArr (c : Dev nD) : Vec Ideal S65536x64 .f32 := V c main_v61
abbrev dArr (c : Dev nD) : Vec Ideal S65536x1 .f32 := V c main_v17
abbrev bArr (c : Dev nD) : Vec Ideal S1x64 .f32 := V c main_v62
abbrev gaArr (c : Dev nD) : Vec Ideal S1x64 .f32 := V c main_v63
abbrev beArr (c : Dev nD) : Vec Ideal S1x64 .f32 := V c main_v64
abbrev rmArr (c : Dev nD) : Vec Ideal S1x64 .f32 := V c main_v65
abbrev rvArr (c : Dev nD) : Vec Ideal S1x64 .f32 := V c main_v66
abbrev idArr (c : Dev nD) : Vec Ideal S65536x1 .i32 := V c main_v18
abbrev wpArr (c : Dev nD) : Vec Ideal S64x64 .f32 := V c main_arg21
abbrev bpArr (c : Dev nD) : Vec Ideal S1x64 .f32 := V c main_v67

def ptSums (c : Dev nD) (g j : Fin 64) (n : ℕ) : EReal :=
  addSums (sBlk V c (pt3 n)) (dBlk V c (pt3 n)) (bBlk V c (pt3 n)) (gaBlk V c (pt3 n)) (beBlk V c (pt3 n)) (rmBlk V c (pt3 n))
    (rvBlk V c (pt3 n)) (idBlk V c (pt3 n)) g j

def ptCount (c : Dev nD) (g : Fin 64) (n : ℕ) : EReal := addCount (idBlk V c (pt3 n)) g

theorem sc0After_apply (c : Dev nD) (g j : Fin 64) : ∀ n : ℕ,
    sc0After V c n (ix2 g j) = ∑ t ∈ Finset.range (n + 1), ptSums V c g j t
  | 0 => by
    rw [Finset.sum_range_one]
    refine (sc0Step_apply sc0Zero (sBlk V c (pt3 0)) (dBlk V c (pt3 0)) (bBlk V c (pt3 0)) (gaBlk V c (pt3 0)) (beBlk V c (pt3 0))
      (rmBlk V c (pt3 0)) (rvBlk V c (pt3 0)) (idBlk V c (pt3 0)) g j).trans ?_
    rw [sc0Zero_apply, zero_add]; rfl
  | n + 1 => by
    rw [Finset.sum_range_succ, ← sc0After_apply c g j n]
    exact sc0Step_apply (sc0After V c n) (sBlk V c (pt3 (n + 1))) (dBlk V c (pt3 (n + 1))) (bBlk V c (pt3 (n + 1))) (gaBlk V c (pt3 (n + 1)))
      (beBlk V c (pt3 (n + 1))) (rmBlk V c (pt3 (n + 1))) (rvBlk V c (pt3 (n + 1))) (idBlk V c (pt3 (n + 1))) g j

theorem sc1After_apply (c : Dev nD) (g : Fin 64) (u : Fin 1) : ∀ n : ℕ,
    sc1After V c n (ix2 g u) = ∑ t ∈ Finset.range (n + 1), ptCount V c g t
  | 0 => by
    rw [Finset.sum_range_one]
    refine (sc1Step_apply sc1Zero (idBlk V c (pt3 0)) g u).trans ?_
    rw [sc1Zero_apply, zero_add]; rfl
  | n + 1 => by
    rw [Finset.sum_range_succ, ← sc1After_apply c g u n]
    exact sc1Step_apply (sc1After V c n) (idBlk V c (pt3 (n + 1))) g u

theorem idx_rows3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_7.index t (0 : Fin 2) = t.val ∧ win3_7.index t (1 : Fin 2) = 0 :=
  (by decide +kernel : ∀ t : Fin grid3.N, _)

theorem idx_const3 : ∀ t : Fin cfg3.N,
    win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

theorem sBlk_apply (c : Dev nD) (t : Fin cfg3.N) (r : Fin 4096) (j : Fin 64) (n : Fin 65536) (hn : n.val = t.val * 4096 + r.val) :
    sBlk V c t (ix2 r j) = sArr V c (ix2 n j) := by
  show V c main_v61 (((cfg3.win 0).blk t).view.emb (ix2 r j)) = V c main_v61 (ix2 n j)
  refine congrArg _ ?_
  funext a; apply Fin.ext
  obtain ⟨e0, e1, -⟩ := idx_rows3 t
  match a with
  | ⟨0, _⟩ => show win3_0.index t (0 : Fin 2) * 4096 + 1 * r.val = n.val; omega
  | ⟨1, _⟩ => show win3_0.index t (1 : Fin 2) * 64 + 1 * j.val = j.val; omega

theorem dBlk_apply (c : Dev nD) (t : Fin cfg3.N) (r : Fin 4096) (u : Fin 1) (n : Fin 65536) (hn : n.val = t.val * 4096 + r.val) :
    dBlk V c t (ix2 r u) = dArr V c (ix2 n u) := by
  show V c main_v17 (((cfg3.win 1).blk t).view.emb (ix2 r u)) = V c main_v17 (ix2 n u)
  refine congrArg _ ?_
  funext a; apply Fin.ext
  obtain ⟨-, -, e0, e1, -⟩ := idx_rows3 t
  match a with
  | ⟨0, _⟩ => show win3_1.index t (0 : Fin 2) * 4096 + 1 * r.val = n.val; omega
  | ⟨1, _⟩ => show win3_1.index t (1 : Fin 2) * 1 + 1 * u.val = u.val; omega

theorem idBlk_apply (c : Dev nD) (t : Fin cfg3.N) (r : Fin 4096) (u : Fin 1) (n : Fin 65536) (hn : n.val = t.val * 4096 + r.val) :
    idBlk V c t (ix2 r u) = idArr V c (ix2 n u) := by
  show V c main_v18 (((cfg3.win 7).blk t).view.emb (ix2 r u)) = V c main_v18 (ix2 n u)
  refine congrArg _ ?_
  funext a; apply Fin.ext
  obtain ⟨-, -, -, -, e0, e1⟩ := idx_rows3 t
  match a with
  | ⟨0, _⟩ => show win3_7.index t (0 : Fin 2) * 4096 + 1 * r.val = n.val; omega
  | ⟨1, _⟩ => show win3_7.index t (1 : Fin 2) * 1 + 1 * u.val = u.val; omega

theorem bBlk_eq (c : Dev nD) (t : Fin cfg3.N) : bBlk V c t = bArr V c := by
  funext y
  show V c main_v62 (((cfg3.win 2).blk t).view.emb y) = V c main_v62 y
  refine congrArg _ ?_
  funext a; apply Fin.ext
  obtain ⟨e0, e1, -⟩ := idx_const3 t
  match a with
  | ⟨0, _⟩ => show win3_2.index t (0 : Fin 2) * 1 + 1 * (y 0).val = (y 0).val; omega
  | ⟨1, _⟩ => show win3_2.index t (1 : Fin 2) * 64 + 1 * (y 1).val = (y 1).val; omega

theorem gaBlk_eq (c : Dev nD) (t : Fin cfg3.N) : gaBlk V c t = gaArr V c := by
  funext y
  show V c main_v63 (((cfg3.win 3).blk t).view.emb y) = V c main_v63 y
  refine congrArg _ ?_
  funext a; apply Fin.ext
  obtain ⟨-, -, e0, e1, -⟩ := idx_const3 t
  match a with
  | ⟨0, _⟩ => show win3_3.index t (0 : Fin 2) * 1 + 1 * (y 0).val = (y 0).val; omega
  | ⟨1, _⟩ => show win3_3.index t (1 : Fin 2) * 64 + 1 * (y 1).val = (y 1).val; omega

theorem beBlk_eq (c : Dev nD) (t : Fin cfg3.N) : beBlk V c t = beArr V c := by
  funext y
  show V c main_v64 (((cfg3.win 4).blk t).view.emb y) = V c main_v64 y
  refine congrArg _ ?_
  funext a; apply Fin.ext
  obtain ⟨-, -, -, -, e0, e1, -⟩ := idx_const3 t
  match a with
  | ⟨0, _⟩ => show win3_4.index t (0 : Fin 2) * 1 + 1 * (y 0).val = (y 0).val; omega
  | ⟨1, _⟩ => show win3_4.index t (1 : Fin 2) * 64 + 1 * (y 1).val = (y 1).val; omega

theorem rmBlk_eq (c : Dev nD) (t : Fin cfg3.N) : rmBlk V c t = rmArr V c := by
  funext y
  show V c main_v65 (((cfg3.win 5).blk t).view.emb y) = V c main_v65 y
  refine congrArg _ ?_
  funext a; apply Fin.ext
  obtain ⟨-, -, -, -, -, -, e0, e1, -⟩ := idx_const3 t
  match a with
  | ⟨0, _⟩ => show win3_5.index t (0 : Fin 2) * 1 + 1 * (y 0).val = (y 0).val; omega
  | ⟨1, _⟩ => show win3_5.index t (1 : Fin 2) * 64 + 1 * (y 1).val = (y 1).val; omega

theorem rvBlk_eq (c : Dev nD) (t : Fin cfg3.N) : rvBlk V c t = rvArr V c := by
  funext y
  show V c main_v66 (((cfg3.win 6).blk t).view.emb y) = V c main_v66 y
  refine congrArg _ ?_
  funext a; apply Fin.ext
  obtain ⟨-, -, -, -, -, -, -, -, e0, e1, -⟩ := idx_const3 t
  match a with
  | ⟨0, _⟩ => show win3_6.index t (0 : Fin 2) * 1 + 1 * (y 0).val = (y 0).val; omega
  | ⟨1, _⟩ => show win3_6.index t (1 : Fin 2) * 64 + 1 * (y 1).val = (y 1).val; omega

theorem wpBlk_eq (c : Dev nD) (t : Fin cfg3.N) : wpBlk V c t = wpArr V c := by
  funext y
  show V c main_arg21 (((cfg3.win 8).blk t).view.emb y) = V c main_arg21 y
  refine congrArg _ ?_
  funext a; apply Fin.ext
  obtain ⟨-, -, -, -, -, -, -, -, -, -, e0, e1, -⟩ := idx_const3 t
  match a with
  | ⟨0, _⟩ => show win3_8.index t (0 : Fin 2) * 64 + 1 * (y 0).val = (y 0).val; omega
  | ⟨1, _⟩ => show win3_8.index t (1 : Fin 2) * 64 + 1 * (y 1).val = (y 1).val; omega

theorem bpBlk_eq (c : Dev nD) (t : Fin cfg3.N) : bpBlk V c t = bpArr V c := by
  funext y
  show V c main_v67 (((cfg3.win 9).blk t).view.emb y) = V c main_v67 y
  refine congrArg _ ?_
  funext a; apply Fin.ext
  obtain ⟨-, -, -, -, -, -, -, -, -, -, -, -, e0, e1, -⟩ := idx_const3 t
  match a with
  | ⟨0, _⟩ => show win3_9.index t (0 : Fin 2) * 1 + 1 * (y 0).val = (y 0).val; omega
  | ⟨1, _⟩ => show win3_9.index t (1 : Fin 2) * 64 + 1 * (y 1).val = (y 1).val; omega

def rowEquiv : Fin 16 × Fin 4096 ≃ Fin 65536 where
  toFun p := ⟨p.1.val * 4096 + p.2.val, by have := p.1.isLt; have := p.2.isLt; omega⟩
  invFun n := (⟨n.val / 4096, by have := n.isLt; omega⟩, ⟨n.val % 4096, by omega⟩)
  left_inv p := by
    have h1 := p.1.isLt; have h2 := p.2.isLt
    refine Prod.ext (Fin.ext ?_) (Fin.ext ?_)
    · show (p.1.val * 4096 + p.2.val) / 4096 = p.1.val; omega
    · show (p.1.val * 4096 + p.2.val) % 4096 = p.2.val; omega
  right_inv n := by
    refine Fin.ext ?_
    show n.val / 4096 * 4096 + n.val % 4096 = n.val; omega

theorem sum_rows (f : Fin 65536 → EReal) :
    ∑ t ∈ Finset.range 16, ∑ r : Fin 4096, f ⟨min t 15 * 4096 + r.val, by have := r.isLt; omega⟩ = ∑ n : Fin 65536, f n := by
  rw [Finset.sum_range, ← Equiv.sum_comp rowEquiv f, Fintype.sum_prod_type]
  refine Finset.sum_congr rfl fun t _ => Finset.sum_congr rfl fun r _ => congrArg f (Fin.ext ?_)
  show min t.val 15 * 4096 + r.val = t.val * 4096 + r.val
  have := t.isLt; omega

theorem ptSums_eq (c : Dev nD) (g j : Fin 64) (t : ℕ) :
    ptSums V c g j t = ∑ r : Fin 4096, (fun n : Fin 65536 => oh (idArr V c) n g
      * bnrelu (sArr V c) (dArr V c) (bArr V c) (rvArr V c) (rmArr V c) (gaArr V c) (beArr V c) n j)
        ⟨min t 15 * 4096 + r.val, by have := r.isLt; omega⟩ := by
  unfold ptSums addSums
  refine Finset.sum_congr rfl fun r _ => ?_
  rw [sBlk_apply V c (pt3 t) r j ⟨min t 15 * 4096 + r.val, by have := r.isLt; omega⟩ rfl,
    dBlk_apply V c (pt3 t) r 0 ⟨min t 15 * 4096 + r.val, by have := r.isLt; omega⟩ rfl,
    idBlk_apply V c (pt3 t) r 0 ⟨min t 15 * 4096 + r.val, by have := r.isLt; omega⟩ rfl,
    bBlk_eq, gaBlk_eq, beBlk_eq, rmBlk_eq, rvBlk_eq]
  rfl

theorem ptCount_eq (c : Dev nD) (g : Fin 64) (t : ℕ) :
    ptCount V c g t = ∑ r : Fin 4096, (fun n : Fin 65536 => oh (idArr V c) n g) ⟨min t 15 * 4096 + r.val, by have := r.isLt; omega⟩ := by
  unfold ptCount addCount
  refine Finset.sum_congr rfl fun r _ => ?_
  rw [idBlk_apply V c (pt3 t) r 0 ⟨min t 15 * 4096 + r.val, by have := r.isLt; omega⟩ rfl]
  rfl

theorem sums_last (c : Dev nD) (g j : Fin 64) :
    sc0After V c 15 (ix2 g j) = ∑ n : Fin 65536, oh (idArr V c) n g
      * bnrelu (sArr V c) (dArr V c) (bArr V c) (rvArr V c) (rmArr V c) (gaArr V c) (beArr V c) n j := by
  rw [sc0After_apply]
  exact (Finset.sum_congr rfl fun t _ => ptSums_eq V c g j t).trans
    (sum_rows fun n : Fin 65536 => oh (idArr V c) n g
      * bnrelu (sArr V c) (dArr V c) (bArr V c) (rvArr V c) (rmArr V c) (gaArr V c) (beArr V c) n j)

theorem count_last (c : Dev nD) (g : Fin 64) (u : Fin 1) :
    sc1After V c 15 (ix2 g u) = ∑ n : Fin 65536, oh (idArr V c) n g := by
  rw [sc1After_apply]
  exact (Finset.sum_congr rfl fun t _ => ptCount_eq V c g t).trans (sum_rows fun n : Fin 65536 => oh (idArr V c) n g)

theorem flush10_last (t : Fin cfg3.N) (h : (cfg3.win 10).flush t = true) : t.val = 15 := by
  have h1 := (flush3_10 t).mp h
  have h2 : t.val < grid3.N := t.isLt
  have h3 := N_3
  omega

theorem out_last (c : Dev nD) (t : Fin cfg3.N) :
    k3_pay4 (F := Ideal) (sc0After V c 15) (sc1After V c 15) (wpBlk V c t) (bpBlk V c t)
      = G3 (sArr V c) (dArr V c) (bArr V c) (gaArr V c) (beArr V c) (rmArr V c) (rvArr V c) (idArr V c) (wpArr V c) (bpArr V c) := by
  funext y
  obtain ⟨g, k, rfl⟩ : ∃ (g k : Fin 64), y = ix2 g k := ⟨y 0, y 1, eq_ix2 y⟩
  rw [k3_pay4_apply, wpBlk_eq, bpBlk_eq, count_last]
  simp only [sums_last]
  rfl

theorem mem_blk10 (t : Fin cfg3.N) (i : S64x64.Idx) :
    i ∈ ((cfg3.win 10).blk t).view.set ↔ ∀ a : Fin 2, win3_10.index t a * S64x64.size a ≤ (i a).val ∧ (i a).val < win3_10.index t a * S64x64.size a + S64x64.size a := by
  show i ∈ ((View.whole main_v68).slice (win3_10.rect t)).set ↔ _
  rw [View.set_slice_whole, Rect.mem_set_unit]
  exact Iff.rfl

theorem flushed10_eq (c : Dev nD) (t : Fin cfg3.N) (hf : (cfg3.win 10).flush t = true) :
    (dat3 V c).flushed 10 t = ((cfg3.win 10).blk t).view.read (Elt Ideal)
      (G3 (sArr V c) (dArr V c) (bArr V c) (gaArr V c) (beArr V c) (rmArr V c) (rvArr V c) (idArr V c) (wpArr V c) (bpArr V c)) := by
  have ht : t.val = 15 := flush10_last t hf
  show (cfg3.win 10).cut (grid3.coords t) ((dat3 V c).after 10 t) = _
  rw [after3_10]
  unfold out3_10
  rw [View.canon_unit_zero zeros2]
  simp only [View.ld_unit_zero (S := S64x64) zeros2, View.ld_unit_zero (S := S64x1) zeros2, View.ld_unit_zero (S := S1x64) zeros2]
  rw [ht]
  funext y
  have hemb : ((cfg3.win 10).blk t).view.emb y = y := by
    funext a; apply Fin.ext
    obtain ⟨-, -, -, -, -, -, -, -, -, -, -, -, -, -, e0, e1⟩ := idx_const3 t
    match a with
    | ⟨0, _⟩ => show win3_10.index t (0 : Fin 2) * 64 + 1 * (y 0).val = (y 0).val; omega
    | ⟨1, _⟩ => show win3_10.index t (1 : Fin 2) * 64 + 1 * (y 1).val = (y 1).val; omega
  show k3_pay4 (F := Ideal) (sc0After V c 15) (sc1After V c 15) (wpBlk V c t) (bpBlk V c t) y
    = G3 (sArr V c) (dArr V c) (bArr V c) (gaArr V c) (beArr V c) (rmArr V c) (rvArr V c) (idArr V c) (wpArr V c) (bpArr V c)
        (((cfg3.win 10).blk t).view.emb y)
  rw [hemb, out_last]

theorem cover10 (i : S64x64.Idx) : ∃ t : Fin cfg3.N, (cfg3.win 10).flush t = true ∧ i ∈ ((cfg3.win 10).blk t).view.set := by
  refine ⟨pt3 15, (flush3_10 (pt3 15)).mpr rfl, ?_⟩
  rw [mem_blk10]
  obtain ⟨-, -, -, -, -, -, -, -, -, -, -, -, -, -, e0, e1⟩ := idx_const3 (pt3 15)
  intro a
  match a with
  | ⟨0, _⟩ =>
    show win3_10.index (pt3 15) (0 : Fin 2) * 64 ≤ (i 0).val ∧ (i 0).val < win3_10.index (pt3 15) (0 : Fin 2) * 64 + 64
    have hi : (i 0).val < 64 := (i 0).isLt
    omega
  | ⟨1, _⟩ =>
    show win3_10.index (pt3 15) (1 : Fin 2) * 64 ≤ (i 1).val ∧ (i 1).val < win3_10.index (pt3 15) (1 : Fin 2) * 64 + 64
    have hi : (i 1).val < 64 := (i 1).isLt
    omega

theorem final3 (c : Dev nD) : (dat3 (F := Ideal) V c).arrAt 10 cfg3.N
    = G3 (V c main_v61) (V c main_v17) (V c main_v62) (V c main_v63) (V c main_v64) (V c main_v65) (V c main_v66)
        (V c main_v18) (V c main_arg21) (V c main_v67) :=
  (dat3 V c).arrAt_eq_of_cover 10 _ (fun t hf => flushed10_eq V c t hf) cover10

end Cert.KernelIdeal.HandVal

end
-- ==== Proof.Val.KernelValue.lean ====
import proofs.«431363_j22273700397650_3_alg».proof.Proof.KI.Segs
import proofs.«431363_j22273700397650_3_alg».proof.Proof.Val.KHost
import proofs.«431363_j22273700397650_3_alg».proof.Proof.Val.Spec
import proofs.«431363_j22273700397650_3_alg».proof.Proof.Val.KVal
import proofs.«431363_j22273700397650_3_alg».proof.Proof.Val.Final0
import proofs.«431363_j22273700397650_3_alg».proof.Proof.Val.Final1
import proofs.«431363_j22273700397650_3_alg».proof.Proof.Val.Final2
import proofs.«431363_j22273700397650_3_alg».proof.Proof.Val.Final3

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ)

theorem out4_value (c : Dev nD) :
    (outs m 4 main_v19 c : (⟨S65536x64, .f32⟩ : BufTy).Contents (Elt Ideal)) = H0 (m ((c : Thread nD τ).loc main_arg0)) (m ((c : Thread nD τ).loc main_arg1)) (m ((c : Thread nD τ).loc main_arg3)) := by
  rw [outs_4 m c, final0 (T3 m) c]
  show G0 (Gen.V3 m c main_arg0) (Gen.V3 m c main_arg3) (Gen.V3 m c main_v17) = _
  rw [V3_arg0 m c, V3_arg3 m c, kdisCol m c]
  rfl

theorem out6_value (c : Dev nD) :
    (outs m 6 main_v35 c : (⟨S65536x64, .f32⟩ : BufTy).Contents (Elt Ideal))
      = H1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [outs_6 m c, final1 (T5 m) c]
  show G1 (U5 m c main_v29) (U5 m c main_v17) (U5 m c main_v30) (U5 m c main_v31) (U5 m c main_v32) (U5 m c main_v33)
    (U5 m c main_v34) (U5 m c main_arg9) = _
  rw [← V5_eq m c]
  rw [V5_agg m (outs m) c, V5_disCol m (outs m) c, V5_main_v30 m (outs m) c, V5_main_v31 m (outs m) c,
    V5_main_v32 m (outs m) c, V5_main_v33 m (outs m) c, V5_main_v34 m (outs m) c, V5_main_arg9 m (outs m) c,
    out4_value m c]
  rfl

theorem out8_value (c : Dev nD) :
    (outs m 8 main_v51 c : (⟨S65536x64, .f32⟩ : BufTy).Contents (Elt Ideal))
      = H2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [outs_8 m c, final2 (T7 m) c]
  show G1 (U7 m c main_v45) (U7 m c main_v17) (U7 m c main_v46) (U7 m c main_v47) (U7 m c main_v48) (U7 m c main_v49)
    (U7 m c main_v50) (U7 m c main_arg15) = _
  rw [← V7_eq m c]
  rw [V7_agg m (outs m) c, V7_disCol m (outs m) c, V7_main_v46 m (outs m) c, V7_main_v47 m (outs m) c,
    V7_main_v48 m (outs m) c, V7_main_v49 m (outs m) c, V7_main_v50 m (outs m) c, V7_main_arg15 m (outs m) c,
    out6_value m c]
  rfl

theorem kernel_value (c : Dev nD) :
    (Gen.V10 m (outs m) c main_v68 : (⟨S64x64, .f32⟩ : BufTy).Contents (Elt Ideal))
      = KVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [V10_out m (outs m) c, outs_10 m c, final3 (T9 m) c]
  show G3 (U9 m c main_v61) (U9 m c main_v17) (U9 m c main_v62) (U9 m c main_v63) (U9 m c main_v64) (U9 m c main_v65)
    (U9 m c main_v66) (U9 m c main_v18) (U9 m c main_arg21) (U9 m c main_v67) = _
  rw [← V9_eq m c]
  rw [V9_agg m (outs m) c, V9_disCol m (outs m) c, V9_main_v62 m (outs m) c, V9_main_v63 m (outs m) c,
    V9_main_v64 m (outs m) c, V9_main_v65 m (outs m) c, V9_main_v66 m (outs m) c, V9_batchCol m (outs m) c,
    V9_main_arg21 m (outs m) c, V9_main_v67 m (outs m) c, out8_value m c]
  rfl

end Cert.KernelIdeal.HandVal

end
-- ==== Proof.Val.Algebra.lean ====
import Idealize.ShloMosaic.PureOps.Ideal
import Idealize.ShloMosaic.PureOps.Ideal.Laws
import Idealize.ShloMosaic.Lib.ValueIdx
import Mathlib.Data.EReal.Operations
import Mathlib.Algebra.BigOperators.Group.Finset.Basic

noncomputable section

open scoped BigOperators
open Idealize.ShloMosaic Idealize.ShloMosaic.ValueIdx

namespace Cert.Val

theorem sum_mul_coe_of_nonneg {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

theorem ofBits_one_f32 : Ideal.ofBits .f32 0x3F800000#32 = 1 := by
  simp [Ideal.ofBits, Ideal.ieee]
  rw [← EReal.coe_mul, ← EReal.coe_one, EReal.coe_eq_coe_iff]
  norm_num

theorem dis_elem_nonneg_real (d : EReal) :
    ∃ r : ℝ, 0 ≤ r ∧
      Scalar.select (Ideal.cmp .ogt d 0) (Ideal.rsqrt (max d 1)) (0 : EReal) = (r : EReal) := by
  by_cases hd : (0 : EReal) < d
  · have hc : Ideal.cmp .ogt d 0 = 1#1 := by simp [Ideal.cmp, hd]
    rw [hc, select_one]
    induction d using EReal.rec with
    | bot => exact absurd hd (by simp)
    | top => exact ⟨0, le_refl _, by simp⟩
    | coe x =>
      have hm : max (x : EReal) 1 = ((max x 1 : ℝ) : EReal) := by
        rw [← EReal.coe_one, ← Monotone.map_max EReal.coe_strictMono.monotone]
      have h1 : (1 : ℝ) ≤ max x 1 := le_max_right _ _
      rw [hm, Ideal.rsqrt_coe, if_neg (by linarith), if_neg (by linarith)]
      exact ⟨(Real.sqrt (max x 1))⁻¹, inv_nonneg.mpr (Real.sqrt_nonneg _), rfl⟩
  · have hc : Ideal.cmp .ogt d 0 = 0#1 := by simp [Ideal.cmp, hd]
    rw [hc, select_zero]
    exact ⟨0, le_refl _, rfl⟩

theorem dis_elem_nonneg_real_bits (d : Ideal .f32) :
    ∃ r : ℝ, 0 ≤ r ∧
      Scalar.select (FloatOps.cmpf .ogt d (Ideal.ofBits .f32 0x00000000#32))
        (FloatOps.hostUnary .rsqrt (FloatOps.maximumf d (Ideal.ofBits .f32 0x3F800000#32)))
        (Ideal.ofBits .f32 0x00000000#32) = (r : EReal) := by
  have h := dis_elem_nonneg_real d
  rwa [← Ideal.ofBits_zero_f32, ← ofBits_one_f32] at h

theorem dis_nonneg_real {s : Shape} (hb : (⟨0, ![]⟩ : Shape).BroadcastsInDim s ![]) (deg : FVec Ideal s .f32) (n : s.Idx) :
    ∃ r : ℝ, 0 ≤ r ∧
      select (cmpf .ogt deg (broadcastInDim s ![] hb (constant (F := Ideal) ⟨0, ![]⟩ .f32 0x00000000#32)))
        (Host.rsqrt (maximumf deg (broadcastInDim s ![] hb (constant (F := Ideal) ⟨0, ![]⟩ .f32 0x3F800000#32))))
        (broadcastInDim s ![] hb (constant (F := Ideal) ⟨0, ![]⟩ .f32 0x00000000#32)) n = (r : EReal) :=
  dis_elem_nonneg_real_bits (deg n)

section Dims
variable {N M K w : Nat}

abbrev rowScatterDims (N M K : Nat)
    (wf : ScatterDims.WF ⟨2, ![N, K]⟩ ⟨2, ![M, 1]⟩ ⟨2, ![M, K]⟩ [1] [0] [0] 1) :
    ScatterDims ⟨2, ![N, K]⟩ ⟨2, ![M, 1]⟩ ⟨2, ![M, K]⟩ where
  updateWindowDims := [1]
  insertedWindowDims := [0]
  scatterDimsToOperandDims := [0]
  indexVectorDim := 1
  wf := wf

theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have := congrFun (Option.some.inj he) a
      have h2 := h a
      have h3 := congrArg Fin.val this
      simp only at h3
      omega
    · intro he
      congr 1
      funext a
      refine Fin.ext ?_
      have := he a
      simp only
      omega
  · rename_i h
    constructor
    · intro he; exact absurd he (by simp)
    · intro he
      exact absurd (fun a => by have := he a; have := (i a).isLt; omega) h

variable (wf : ScatterDims.WF ⟨2, ![N, K]⟩ ⟨2, ![M, 1]⟩ ⟨2, ![M, K]⟩ [1] [0] [0] 1)

theorem rowScatter_start0 (idx : IVec ⟨2, ![M, 1]⟩ w) (e : Fin M) (k : Fin K) :
    (rowScatterDims N M K wf).start (ix2 e k) idx 0 = (idx (ix2 e 0)).toInt := by
  unfold ScatterDims.start
  rw [dif_pos (show (0 : Fin 2) ∈ (rowScatterDims N M K wf).scatterDimsToOperandDims from List.mem_singleton.mpr rfl)]
  congr 2
  funext b
  refine Fin.ext ?_
  match b with
  | ⟨0, _⟩ => rfl
  | ⟨1, _⟩ => rfl

theorem rowScatter_start1 (idx : IVec ⟨2, ![M, 1]⟩ w) (e : Fin M) (k : Fin K) :
    (rowScatterDims N M K wf).start (ix2 e k) idx 1 = 0 := by
  unfold ScatterDims.start
  have h : (1 : Fin 2) ∉ (rowScatterDims N M K wf).scatterDimsToOperandDims := by
    show (1 : Fin 2) ∉ ([0] : List (Fin 2))
    decide
  rw [dif_neg h]

theorem rowScatter_window0 (e : Fin M) (k : Fin K) : (rowScatterDims N M K wf).window (ix2 e k) 0 = 0 := by
  unfold ScatterDims.window
  have h : (0 : Fin 2) ∉ (rowScatterDims N M K wf).sKept := by
    show (0 : Fin 2) ∉ (List.finRange 2).filter (· ∉ ([0] : List (Fin 2)))
    decide
  rw [dif_neg h]

theorem rowScatter_window1 (e : Fin M) (k : Fin K) : (rowScatterDims N M K wf).window (ix2 e k) 1 = k.val := by
  unfold ScatterDims.window
  have h : (1 : Fin 2) ∈ (rowScatterDims N M K wf).sKept := by
    show (1 : Fin 2) ∈ (List.finRange 2).filter (· ∉ ([0] : List (Fin 2)))
    decide
  rw [dif_pos h]
  rfl

theorem rowScatter_resultIdx?_iff (idx : IVec ⟨2, ![M, 1]⟩ w) (e : Fin M) (k' : Fin K) (n : Fin N) (k : Fin K) :
    (rowScatterDims N M K wf).resultIdx? (ix2 e k') idx = some (ix2 n k) ↔
      (idx (ix2 e 0)).toInt = (n.val : Int) ∧ k' = k := by
  rw [resultIdx?_eq_some_iff, Fin.forall_fin_two, rowScatter_start0, rowScatter_start1, rowScatter_window0,
    rowScatter_window1]
  simp only [Nat.cast_zero, add_zero, zero_add, Nat.cast_inj]
  exact and_congr_right fun _ => ⟨fun h => Fin.ext h, fun h => congrArg Fin.val h⟩

end Dims

section Reads
variable {N M K w : Nat}

theorem sum_idx1 {A : Type*} [AddCommMonoid A] {n : Nat} (f : (⟨1, ![n]⟩ : Shape).Idx → A) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

theorem rowScatterAdd_apply (wf : ScatterDims.WF ⟨2, ![N, K]⟩ ⟨2, ![M, 1]⟩ ⟨2, ![M, K]⟩ [1] [0] [0] 1)
    (x : (⟨2, ![N, K]⟩ : Shape).Idx → EReal) (idx : IVec ⟨2, ![M, 1]⟩ w) (upd : (⟨2, ![M, K]⟩ : Shape).Idx → EReal)
    (n : Fin N) (k : Fin K) :
    Ideal.hostScatterAdd (rowScatterDims N M K wf) x idx upd (ix2 n k)
      = x (ix2 n k) + ∑ e : Fin M, if (idx (ix2 e 0)).toInt = (n.val : Int) then upd (ix2 e k) else 0 := by
  unfold Ideal.hostScatterAdd
  congr 1
  rw [Finset.sum_filter, sum_idx2]
  refine Finset.sum_congr rfl fun e _ => ?_
  simp only [rowScatter_resultIdx?_iff]
  by_cases h : (idx (ix2 e 0)).toInt = (n.val : Int)
  · simp [h]
  · simp [h]

abbrev vecScatterDims (G M : Nat) (wf : ScatterDims.WF ⟨1, ![G]⟩ ⟨2, ![M, 1]⟩ ⟨1, ![M]⟩ [] [0] [0] 1) :
    ScatterDims ⟨1, ![G]⟩ ⟨2, ![M, 1]⟩ ⟨1, ![M]⟩ where
  updateWindowDims := []
  insertedWindowDims := [0]
  scatterDimsToOperandDims := [0]
  indexVectorDim := 1
  wf := wf

theorem vecScatterAdd_apply {G : Nat} (wf : ScatterDims.WF ⟨1, ![G]⟩ ⟨2, ![M, 1]⟩ ⟨1, ![M]⟩ [] [0] [0] 1)
    (x : (⟨1, ![G]⟩ : Shape).Idx → EReal) (idx : IVec ⟨2, ![M, 1]⟩ w) (upd : (⟨1, ![M]⟩ : Shape).Idx → EReal) (g : Fin G) :
    Ideal.hostScatterAdd (vecScatterDims G M wf) x idx upd (ix1 g)
      = x (ix1 g) + ∑ e : Fin M, if (idx (ix2 e 0)).toInt = (g.val : Int) then upd (ix1 e) else 0 := by
  unfold Ideal.hostScatterAdd
  congr 1
  rw [Finset.sum_filter, sum_idx1]
  refine Finset.sum_congr rfl fun e _ => ?_
  have hiff : (vecScatterDims G M wf).resultIdx? (ix1 e) idx = some (ix1 g) ↔ (idx (ix2 e 0)).toInt = (g.val : Int) := by
    rw [resultIdx?_eq_some_iff]
    have hs : (vecScatterDims G M wf).start (ix1 e) idx 0 = (idx (ix2 e 0)).toInt := by
      unfold ScatterDims.start
      rw [dif_pos (show (0 : Fin 1) ∈ (vecScatterDims G M wf).scatterDimsToOperandDims from List.mem_singleton.mpr rfl)]
      congr 2
      funext b
      refine Fin.ext ?_
      match b with
      | ⟨0, _⟩ => rfl
      | ⟨1, _⟩ => rfl
    have hw : (vecScatterDims G M wf).window (ix1 e) 0 = 0 := by
      unfold ScatterDims.window
      have h : (0 : Fin 1) ∉ (vecScatterDims G M wf).sKept := by
        show (0 : Fin 1) ∉ (List.finRange 1).filter (· ∉ ([0] : List (Fin 1)))
        decide
      rw [dif_neg h]
    constructor
    · intro h
      have h0 := h 0
      rw [hs, hw, Nat.cast_zero, add_zero] at h0
      exact h0
    · intro h a
      obtain rfl : a = 0 := Subsingleton.elim _ _
      rw [hs, hw, Nat.cast_zero, add_zero]
      exact h
  simp only [hiff]

abbrev rowGatherDims (N M K : Nat)
    (wf : GatherDims.WF ⟨2, ![N, K]⟩ ⟨2, ![M, 1]⟩ ⟨2, ![M, K]⟩ [1] [0] [] [0] [] 1 ![1, K]) :
    GatherDims ⟨2, ![N, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

theorem rowGather_apply {α : Type} (hN : 0 < N)
    (wf : GatherDims.WF ⟨2, ![N, K]⟩ ⟨2, ![M, 1]⟩ ⟨2, ![M, K]⟩ [1] [0] [] [0] [] 1 ![1, K])
    (x : (⟨2, ![N, K]⟩ : Shape).Idx → α) (idx : IVec ⟨2, ![M, 1]⟩ w) (e : Fin M) (k : Fin K) :
    Host.gather (rowGatherDims N M K wf) x idx (ix2 e k)
      = x (ix2 ⟨min (idx (ix2 e 0)).toInt.toNat (N - 1), by omega⟩ k) := by
  unfold Host.gather
  congr 1
  funext a
  refine Fin.ext ?_
  have hb : ∀ a, (rowGatherDims N M K wf).batchCoord (ix2 e k) a = 0 := fun a =>
    GatherDims.batchCoord_eq_zero _ _ _ List.not_mem_nil
  match a with
  | ⟨0, _⟩ =>
    show (rowGatherDims N M K wf).start (ix2 e k) idx 0 + (rowGatherDims N M K wf).batchCoord (ix2 e k) 0
      + (rowGatherDims N M K wf).offCoord (ix2 e k) 0 = _
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGatherDims N M K wf).startIndexMap from List.mem_singleton.mpr rfl)]
    have hsi : (rowGatherDims N M K wf).siIdx (ix2 e k) ⟨List.idxOf (0 : Fin 2) (rowGatherDims N M K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N M K wf).start (ix2 e k) idx 1 + (rowGatherDims N M K wf).batchCoord (ix2 e k) 1
      + (rowGatherDims N M K wf).offCoord (ix2 e k) 1 = k.val
    rw [hb]
    have hs : (rowGatherDims N M K wf).start (ix2 e k) idx 1 = 0 := by
      unfold GatherDims.start
      have h : (1 : Fin 2) ∉ (rowGatherDims N M K wf).startIndexMap := by
        show (1 : Fin 2) ∉ ([0] : List (Fin 2))
        decide
      rw [dif_neg h]
    have ho : (rowGatherDims N M K wf).offCoord (ix2 e k) 1 = k.val := by
      unfold GatherDims.offCoord
      have h : (1 : Fin 2) ∈ (rowGatherDims N M K wf).sKept := by
        show (1 : Fin 2) ∈ (List.finRange 2).filter (· ∉ (([0] : List (Fin 2)) ++ []))
        decide
      rw [dif_pos h]
      rfl
    rw [hs, ho]
    omega

abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem vecGather_apply {α : Type} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Reads

section Layer
variable {N M K w : Nat}

theorem layer_law (hN : 0 < N)
    (wfS : ScatterDims.WF ⟨2, ![N, K]⟩ ⟨2, ![M, 1]⟩ ⟨2, ![M, K]⟩ [1] [0] [0] 1)
    (wfG : GatherDims.WF ⟨2, ![N, K]⟩ ⟨2, ![M, 1]⟩ ⟨2, ![M, K]⟩ [1] [0] [] [0] [] 1 ![1, K])
    (wf1 : GatherDims.WF ⟨1, ![N]⟩ ⟨2, ![M, 1]⟩ ⟨1, ![M]⟩ [] [0] [] [0] [] 1 ![1])
    (P Pd : (⟨2, ![N, K]⟩ : Shape).Idx → EReal) (dis : (⟨1, ![N]⟩ : Shape).Idx → EReal)
    (colS rowG rowG1 colG : IVec ⟨2, ![M, 1]⟩ w)
    (updK updR : (⟨2, ![M, K]⟩ : Shape).Idx → EReal)
    (hdis : ∀ n, ∃ r : ℝ, 0 ≤ r ∧ dis n = (r : EReal))
    (hPd : ∀ n k, Pd (ix2 n k) = P (ix2 n k) * dis (ix1 n))
    (hrow : ∀ e, rowG1 (ix2 e 0) = rowG (ix2 e 0))
    (hcol : ∀ e, 0 ≤ (colS (ix2 e 0)).toInt → (colS (ix2 e 0)).toInt < (N : Int) → colG (ix2 e 0) = colS (ix2 e 0))
    (hupdK : ∀ e k, updK (ix2 e k) = Host.gather (rowGatherDims N M K wfG) Pd rowG (ix2 e k))
    (hupdR : ∀ e k, updR (ix2 e k) = Host.gather (rowGatherDims N M K wfG) P rowG (ix2 e k) *
      (Host.gather (vecGatherDims N M wf1) dis rowG1 (ix1 e) * Host.gather (vecGatherDims N M wf1) dis colG (ix1 e)))
    (n : Fin N) (k : Fin K) :
    Ideal.hostScatterAdd (rowScatterDims N M K wfS) (fun _ => 0) colS updK (ix2 n k) * dis (ix1 n)
      = Ideal.hostScatterAdd (rowScatterDims N M K wfS) (fun _ => 0) colS updR (ix2 n k) := by
  rw [rowScatterAdd_apply, rowScatterAdd_apply]
  simp only [zero_add]
  obtain ⟨r, hr, hdn⟩ := hdis (ix1 n)
  rw [hdn, sum_mul_coe_of_nonneg _ _ hr, ← hdn]
  refine Finset.sum_congr rfl fun e _ => ?_
  by_cases h : (colS (ix2 e 0)).toInt = (n.val : Int)
  · have h0 : 0 ≤ (colS (ix2 e 0)).toInt := by omega
    have h1 : (colS (ix2 e 0)).toInt < (N : Int) := by have := n.isLt; omega
    have key : ∀ p : min (colS (ix2 e 0)).toInt.toNat (N - 1) < N,
        (⟨min (colS (ix2 e 0)).toInt.toNat (N - 1), p⟩ : Fin N) = n := fun p => Fin.ext (by
      show min (colS (ix2 e 0)).toInt.toNat (N - 1) = n.val
      have := n.isLt
      omega)
    rw [if_pos h, if_pos h, hupdK, hupdR, rowGather_apply hN, rowGather_apply hN, vecGather_apply hN,
      vecGather_apply hN, hPd]
    simp only [hrow, hcol e h0 h1, key]
    rw [mul_assoc]
  · rw [if_neg h, if_neg h, zero_mul]

theorem normalise_of_nonneg (v c : BitVec 32) (hv : 0 ≤ v.toInt) :
    Scalar.select (IntOp.cmpi .slt v 0#32) (v + c) v = v := by
  have : IntOp.cmpi .slt v 0#32 = 0#1 := by
    have hn : ¬ v.toInt < 0 := not_lt.mpr hv
    simp [IntOp.cmpi, BitVec.slt, hn]
  rw [this, select_zero]

end Layer

section Pool
variable {G N K : Nat}

theorem oneHot_eq (b : BitVec 32) (c : Nat) (hc : c < 2 ^ 31) :
    FloatOps.sitofp (F := Ideal) .f32 ((IntOp.cmpi .eq b (BitVec.ofNat 32 c)).setWidth 32)
      = if b.toInt = (c : Int) then (1 : EReal) else 0 := by
  have hiff : b = BitVec.ofNat 32 c ↔ b.toInt = (c : Int) := by
    constructor
    · rintro rfl
      rw [BitVec.toInt_ofNat']
      apply Int.bmod_eq_of_le <;> omega
    · intro h
      apply BitVec.eq_of_toInt_eq
      rw [h, BitVec.toInt_ofNat']
      symm
      apply Int.bmod_eq_of_le <;> omega
  show (((((IntOp.cmpi .eq b (BitVec.ofNat 32 c)).setWidth 32).toInt : ℤ) : ℝ) : EReal) = _
  by_cases h : b = BitVec.ofNat 32 c
  · rw [if_pos (hiff.mp h)]
    have : IntOp.cmpi .eq b (BitVec.ofNat 32 c) = 1#1 := by simp [IntOp.cmpi, h]
    rw [this]
    simp
  · rw [if_neg (fun h' => h (hiff.mpr h'))]
    have : IntOp.cmpi .eq b (BitVec.ofNat 32 c) = 0#1 := by
      have hb : (b == BitVec.ofNat 32 c) = false := beq_eq_false_iff_ne.mpr h
      simp only [IntOp.cmpi, hb]
      rfl
    rw [this]
    simp

theorem pool_law (hG : G ≤ 2 ^ 31) (wfP : ScatterDims.WF ⟨2, ![G, K]⟩ ⟨2, ![N, 1]⟩ ⟨2, ![N, K]⟩ [1] [0] [0] 1)
    (bidx : IVec ⟨2, ![N, 1]⟩ 32) (h : (⟨2, ![N, K]⟩ : Shape).Idx → EReal) (g : Fin G) (k : Fin K) :
    Ideal.hostScatterAdd (rowScatterDims G N K wfP) (fun _ => 0) bidx h (ix2 g k)
      = ∑ n : Fin N, FloatOps.sitofp (F := Ideal) .f32
          ((IntOp.cmpi .eq (bidx (ix2 n 0)) (BitVec.ofNat 32 g.val)).setWidth 32) * h (ix2 n k) := by
  rw [rowScatterAdd_apply]
  simp only [zero_add]
  refine Finset.sum_congr rfl fun n _ => ?_
  rw [oneHot_eq _ _ (by have := g.isLt; omega)]
  split_ifs <;> simp

theorem count_law (hG : G ≤ 2 ^ 31) (wfC : ScatterDims.WF ⟨1, ![G]⟩ ⟨2, ![N, 1]⟩ ⟨1, ![N]⟩ [] [0] [0] 1)
    (bidx : IVec ⟨2, ![N, 1]⟩ 32) (u : (⟨1, ![N]⟩ : Shape).Idx → EReal) (g : Fin G) :
    Ideal.hostScatterAdd (vecScatterDims G N wfC) (fun _ => 0) bidx u (ix1 g)
      = ∑ n : Fin N, FloatOps.sitofp (F := Ideal) .f32
          ((IntOp.cmpi .eq (bidx (ix2 n 0)) (BitVec.ofNat 32 g.val)).setWidth 32) * u (ix1 n) := by
  rw [vecScatterAdd_apply]
  simp only [zero_add]
  refine Finset.sum_congr rfl fun n _ => ?_
  rw [oneHot_eq _ _ (by have := g.isLt; omega)]
  split_ifs <;> simp

end Pool

end Cert.Val

end
-- ==== Proof.Val.BridgeRef.lean ====
import proofs.«431363_j22273700397650_3_alg».proof.Proof.RefRead
import proofs.«431363_j22273700397650_3_alg».proof.Proof.Val.Algebra
import proofs.«431363_j22273700397650_3_alg».proof.Proof.Val.Spec
import proofs.«431363_j22273700397650_3_alg».proof.Proof.Val.Payloads

set_option maxRecDepth 16384

noncomputable section

namespace Cert.KernelIdeal.HandVal

open Cert.KernelIdeal
open Cert.ReferenceIdeal.Read
open Idealize.ShloMosaic Idealize.ShloMosaic.ValueIdx Idealize.SL.Sem

theorem ref_dis_nonneg (x1 : (⟨S2x1048576, .i32⟩ : BufTy).Contents (Elt Ideal)) (n : S65536.Idx) :
    ∃ r : ℝ, 0 ≤ r ∧ val_main_v16 (F := Ideal) x1 n = (r : EReal) :=
  Cert.Val.dis_nonneg_real Cert.ReferenceIdeal.Facts₀.bcast_S_S65536 (val_main_v10 (F := Ideal) x1) n

theorem ref_v29_apply (x1 : (⟨S2x1048576, .i32⟩ : BufTy).Contents (Elt Ideal)) (e : Fin 1114112) :
    val_main_v29 (F := Ideal) x1 (ix2 e (0 : Fin 1))
      = Scalar.select (IntOp.cmpi .slt (val_main_v6 (F := Ideal) x1 (ix1 e)) 0#32)
          (val_main_v6 (F := Ideal) x1 (ix1 e) + 65536#32) (val_main_v6 (F := Ideal) x1 (ix1 e)) := by
  have hi : idx_main_v29 (ix2 e (0 : Fin 1)) = ix1 e := funext fun a => Fin.ext (by match a with | ⟨0, _⟩ => rfl)
  rw [val_main_v29_apply, hi, val_main_v28_apply, val_main_v25_apply, val_main_v27_apply, val_main_v24_apply,
    val_main_v26_apply, val_main_c_5_apply, val_main_c_6_apply]
  rfl

theorem hostScatterAdd_eq {s si u : Shape} {w : Nat} {φ : FTy} (d : ScatterDims s si u) (x : FVec Ideal s φ) (idx : IVec si w)
    (upd : FVec Ideal u φ) : Host.scatterAdd (F := Ideal) (φ := φ) d x idx upd = Ideal.hostScatterAdd d x idx upd := rfl

theorem refScatter_eq : Cert.ReferenceIdeal.scatter_S65536x64_S1114112x1_S1114112x64_1_0_0_1 = Cert.Val.rowScatterDims 65536 1114112 64 Cert.ReferenceIdeal.Facts₀.scatter_S65536x64_S1114112x1_S1114112x64_1_0_0_1_wf := rfl

theorem ref_dot0 (x0 : (⟨S65536x64, .f32⟩ : BufTy).Contents (Elt Ideal)) (x3 : (⟨S64x64, .f32⟩ : BufTy).Contents (Elt Ideal)) (n : Fin 65536) (q : Fin 64) :
    val_main_v32 (F := Ideal) x0 x3 (ix2 n q) = ∑ j : Fin 64, x0 (ix2 n j) * x3 (ix2 j q) := by
  rw [val_main_v32_apply]
  refine Finset.sum_congr rfl fun k _ => ?_
  have hl : lidx_main_v32 (ix2 n q) k = ix2 n k := funext fun a => Fin.ext (by match a with | ⟨0, _⟩ => rfl | ⟨1, _⟩ => rfl)
  have hr : ridx_main_v32 (ix2 n q) k = ix2 k q := funext fun a => Fin.ext (by match a with | ⟨0, _⟩ => rfl | ⟨1, _⟩ => rfl)
  rw [hl, hr]

theorem ref_v44_apply (x1 : (⟨S2x1048576, .i32⟩ : BufTy).Contents (Elt Ideal)) (e : Fin 1114112) :
    val_main_v44 (F := Ideal) x1 (ix2 e (0 : Fin 1)) = val_main_v6 (F := Ideal) x1 (ix1 e) := by
  have hi : idx_main_v44 (ix2 e (0 : Fin 1)) = ix1 e := funext fun a => Fin.ext (by match a with | ⟨0, _⟩ => rfl)
  rw [val_main_v44_apply, hi]

theorem ref_hcol0 (x1 : (⟨S2x1048576, .i32⟩ : BufTy).Contents (Elt Ideal)) (e : Fin 1114112)
    (h0 : 0 ≤ (val_main_v44 (F := Ideal) x1 (ix2 e (0 : Fin 1))).toInt)
    (_h1 : (val_main_v44 (F := Ideal) x1 (ix2 e (0 : Fin 1))).toInt < ((65536 : ℕ) : Int)) :
    val_main_v29 (F := Ideal) x1 (ix2 e (0 : Fin 1)) = val_main_v44 (F := Ideal) x1 (ix2 e (0 : Fin 1)) := by
  rw [ref_v44_apply] at h0 ⊢
  rw [ref_v29_apply]
  exact Cert.Val.normalise_of_nonneg _ _ h0

theorem ref_upd0 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (e : Fin 1114112) (k : Fin 64) :
    val_main_v42 (F := Ideal) x0 x1 x3 (ix2 e k)
      = Host.gather Cert.ReferenceIdeal.gather_S65536x64_S1114112x1_S1114112x64_1_0_n_n_0_1_164 (val_main_v32 (F := Ideal) x0 x3) (val_main_v38 (F := Ideal) x1) (ix2 e k)
          * (Host.gather Cert.ReferenceIdeal.gather_S65536_S1114112x1_S1114112_n_0_n_n_0_1_1 (val_main_v16 (F := Ideal) x1) (val_main_v22 (F := Ideal) x1) (ix1 e)
              * Host.gather Cert.ReferenceIdeal.gather_S65536_S1114112x1_S1114112_n_0_n_n_0_1_1 (val_main_v16 (F := Ideal) x1) (val_main_v29 (F := Ideal) x1) (ix1 e)) := by
  have hi : idx_main_v40 (idx_main_v41 (ix2 e k)) = ix1 e := funext fun a => Fin.ext (by match a with | ⟨0, _⟩ => rfl)
  rw [val_main_v42_apply, val_main_v41_apply, val_main_v40_apply, hi, val_main_v31_apply, Ideal.mulf_def, Ideal.mulf_def]
  unfold val_main_v39 val_main_v23 val_main_v30
  rfl

theorem ref_agg0 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (Pd : (⟨S65536x64, .f32⟩ : BufTy).Contents (Elt Ideal))
    (hPd : ∀ (n : Fin 65536) (k : Fin 64), Pd (ix2 n k) = val_main_v32 (F := Ideal) x0 x3 (ix2 n k) * val_main_v16 (F := Ideal) x1 (ix1 n))
    (n : Fin 65536) (k : Fin 64) :
    Host.scatterAdd (F := Ideal) (φ := .f32) Cert.ReferenceIdeal.scatter_S65536x64_S1114112x1_S1114112x64_1_0_0_1 (val_main_v43 (F := Ideal)) (val_main_v44 (F := Ideal) x1)
        (Host.gather Cert.ReferenceIdeal.gather_S65536x64_S1114112x1_S1114112x64_1_0_n_n_0_1_164 Pd (val_main_v38 (F := Ideal) x1)) (ix2 n k) * val_main_v16 (F := Ideal) x1 (ix1 n)
      = val_main_v45 (F := Ideal) x0 x1 x3 (ix2 n k) := by
  have hz : val_main_v43 (F := Ideal) = fun _ => (0 : EReal) := funext fun i => by
    rw [val_main_v43_apply, val_main_cst_9_apply]; exact Ideal.ofBits_zero_f32
  have key := Cert.Val.layer_law (N := 65536) (M := 1114112) (K := 64) (w := 32) (Nat.succ_pos _) Cert.ReferenceIdeal.Facts₀.scatter_S65536x64_S1114112x1_S1114112x64_1_0_0_1_wf Cert.ReferenceIdeal.Facts₀.gather_S65536x64_S1114112x1_S1114112x64_1_0_n_n_0_1_164_wf Cert.ReferenceIdeal.Facts₀.gather_S65536_S1114112x1_S1114112_n_0_n_n_0_1_1_wf
    (val_main_v32 (F := Ideal) x0 x3) Pd (val_main_v16 (F := Ideal) x1) (val_main_v44 (F := Ideal) x1) (val_main_v38 (F := Ideal) x1)
    (val_main_v22 (F := Ideal) x1) (val_main_v29 (F := Ideal) x1)
    (Host.gather Cert.ReferenceIdeal.gather_S65536x64_S1114112x1_S1114112x64_1_0_n_n_0_1_164 Pd (val_main_v38 (F := Ideal) x1)) (val_main_v42 (F := Ideal) x0 x1 x3)
    (ref_dis_nonneg x1) hPd (fun _ => rfl) (ref_hcol0 x1) (fun _ _ => rfl) (ref_upd0 x0 x1 x3) n k
  have e45 : val_main_v45 (F := Ideal) x0 x1 x3
      = Host.scatterAdd (F := Ideal) (φ := .f32) Cert.ReferenceIdeal.scatter_S65536x64_S1114112x1_S1114112x64_1_0_0_1 (val_main_v43 (F := Ideal)) (val_main_v44 (F := Ideal) x1) (val_main_v42 (F := Ideal) x0 x1 x3) := rfl
  rw [e45, hostScatterAdd_eq, hostScatterAdd_eq, hz, refScatter_eq]
  exact key

theorem ref_bn0 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (n : Fin 65536) (c : Fin 64) :
    val_main_v64 (F := Ideal) x0 x1 x3 x4 x5 x6 x7 x8 (ix2 n c)
      = max ((((val_main_v45 (F := Ideal) x0 x1 x3 (ix2 n c) + x4 (ix1 c)) - x7 (ix1 c))
              * Ideal.rsqrt (x8 (ix1 c) + Ideal.ofBits .f32 0x3727C5AC#32)) * x5 (ix1 c) + x6 (ix1 c))
          (Ideal.ofBits .f32 0x00000000#32) := by
  have eb : val_main_v47 (F := Ideal) x4 (ix2 n c) = x4 (ix1 c) := by
    rw [val_main_v47_apply, val_main_v46_apply]; exact congrArg x4 (funext fun a => Fin.ext (by match a with | ⟨0, _⟩ => rfl))
  have em : val_main_v50 (F := Ideal) x7 (ix2 n c) = x7 (ix1 c) := by
    rw [val_main_v50_apply, val_main_v49_apply]; exact congrArg x7 (funext fun a => Fin.ext (by match a with | ⟨0, _⟩ => rfl))
  have ev : val_main_v56 (F := Ideal) x8 (ix2 n c) = Ideal.rsqrt (x8 (ix1 c) + Ideal.ofBits .f32 0x3727C5AC#32) := by
    have hi : idx_main_v55 (idx_main_v56 (ix2 n c)) = ix1 c := funext fun a => Fin.ext (by match a with | ⟨0, _⟩ => rfl)
    rw [val_main_v56_apply, val_main_v55_apply, hi, val_main_v54_apply, val_main_v53_apply, val_main_v52_apply, val_main_cst_10_apply]
    rfl
  have eg : val_main_v59 (F := Ideal) x5 (ix2 n c) = x5 (ix1 c) := by
    rw [val_main_v59_apply, val_main_v58_apply]; exact congrArg x5 (funext fun a => Fin.ext (by match a with | ⟨0, _⟩ => rfl))
  have ee : val_main_v62 (F := Ideal) x6 (ix2 n c) = x6 (ix1 c) := by
    rw [val_main_v62_apply, val_main_v61_apply]; exact congrArg x6 (funext fun a => Fin.ext (by match a with | ⟨0, _⟩ => rfl))
  have ez : val_main_call1_v0 (F := Ideal) (ix2 n c) = Ideal.ofBits .f32 0x00000000#32 := by
    rw [val_main_call1_v0_apply, val_main_call1_cst_apply]; rfl
  rw [val_main_v64_apply, val_main_v63_apply, val_main_v60_apply, val_main_v57_apply, val_main_v51_apply, val_main_v48_apply, eb, em, ev, eg, ee, ez]
  rfl

theorem ref_dot1 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (n : Fin 65536) (q : Fin 64) :
    val_main_v65 (F := Ideal) x0 x1 x3 x4 x5 x6 x7 x8 x9 (ix2 n q)
      = ∑ k : Fin 64, val_main_v64 (F := Ideal) x0 x1 x3 x4 x5 x6 x7 x8 (ix2 n k) * x9 (ix2 k q) := by
  rw [val_main_v65_apply]
  refine Finset.sum_congr rfl fun k _ => ?_
  have hl : lidx_main_v65 (ix2 n q) k = ix2 n k := funext fun a => Fin.ext (by match a with | ⟨0, _⟩ => rfl | ⟨1, _⟩ => rfl)
  have hr : ridx_main_v65 (ix2 n q) k = ix2 k q := funext fun a => Fin.ext (by match a with | ⟨0, _⟩ => rfl | ⟨1, _⟩ => rfl)
  rw [hl, hr]

theorem ref_v77_apply (x1 : (⟨S2x1048576, .i32⟩ : BufTy).Contents (Elt Ideal)) (e : Fin 1114112) :
    val_main_v77 (F := Ideal) x1 (ix2 e (0 : Fin 1)) = val_main_v6 (F := Ideal) x1 (ix1 e) := by
  have hi : idx_main_v77 (ix2 e (0 : Fin 1)) = ix1 e := funext fun a => Fin.ext (by match a with | ⟨0, _⟩ => rfl)
  rw [val_main_v77_apply, hi]

theorem ref_hcol1 (x1 : (⟨S2x1048576, .i32⟩ : BufTy).Contents (Elt Ideal)) (e : Fin 1114112)
    (h0 : 0 ≤ (val_main_v77 (F := Ideal) x1 (ix2 e (0 : Fin 1))).toInt)
    (_h1 : (val_main_v77 (F := Ideal) x1 (ix2 e (0 : Fin 1))).toInt < ((65536 : ℕ) : Int)) :
    val_main_v29 (F := Ideal) x1 (ix2 e (0 : Fin 1)) = val_main_v77 (F := Ideal) x1 (ix2 e (0 : Fin 1)) := by
  rw [ref_v77_apply] at h0 ⊢
  rw [ref_v29_apply]
  exact Cert.Val.normalise_of_nonneg _ _ h0

theorem ref_upd1 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (e : Fin 1114112) (k : Fin 64) :
    val_main_v75 (F := Ideal) x0 x1 x3 x4 x5 x6 x7 x8 x9 (ix2 e k)
      = Host.gather Cert.ReferenceIdeal.gather_S65536x64_S1114112x1_S1114112x64_1_0_n_n_0_1_164 (val_main_v65 (F := Ideal) x0 x1 x3 x4 x5 x6 x7 x8 x9) (val_main_v71 (F := Ideal) x1) (ix2 e k)
          * (Host.gather Cert.ReferenceIdeal.gather_S65536_S1114112x1_S1114112_n_0_n_n_0_1_1 (val_main_v16 (F := Ideal) x1) (val_main_v22 (F := Ideal) x1) (ix1 e)
              * Host.gather Cert.ReferenceIdeal.gather_S65536_S1114112x1_S1114112_n_0_n_n_0_1_1 (val_main_v16 (F := Ideal) x1) (val_main_v29 (F := Ideal) x1) (ix1 e)) := by
  have hi : idx_main_v73 (idx_main_v74 (ix2 e k)) = ix1 e := funext fun a => Fin.ext (by match a with | ⟨0, _⟩ => rfl)
  rw [val_main_v75_apply, val_main_v74_apply, val_main_v73_apply, hi, val_main_v31_apply, Ideal.mulf_def, Ideal.mulf_def]
  unfold val_main_v72 val_main_v23 val_main_v30
  rfl

theorem ref_agg1 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (Pd : (⟨S65536x64, .f32⟩ : BufTy).Contents (Elt Ideal))
    (hPd : ∀ (n : Fin 65536) (k : Fin 64), Pd (ix2 n k) = val_main_v65 (F := Ideal) x0 x1 x3 x4 x5 x6 x7 x8 x9 (ix2 n k) * val_main_v16 (F := Ideal) x1 (ix1 n))
    (n : Fin 65536) (k : Fin 64) :
    Host.scatterAdd (F := Ideal) (φ := .f32) Cert.ReferenceIdeal.scatter_S65536x64_S1114112x1_S1114112x64_1_0_0_1 (val_main_v76 (F := Ideal)) (val_main_v77 (F := Ideal) x1)
        (Host.gather Cert.ReferenceIdeal.gather_S65536x64_S1114112x1_S1114112x64_1_0_n_n_0_1_164 Pd (val_main_v71 (F := Ideal) x1)) (ix2 n k) * val_main_v16 (F := Ideal) x1 (ix1 n)
      = val_main_v78 (F := Ideal) x0 x1 x3 x4 x5 x6 x7 x8 x9 (ix2 n k) := by
  have hz : val_main_v76 (F := Ideal) = fun _ => (0 : EReal) := funext fun i => by
    rw [val_main_v76_apply, val_main_cst_13_apply]; exact Ideal.ofBits_zero_f32
  have key := Cert.Val.layer_law (N := 65536) (M := 1114112) (K := 64) (w := 32) (Nat.succ_pos _) Cert.ReferenceIdeal.Facts₀.scatter_S65536x64_S1114112x1_S1114112x64_1_0_0_1_wf Cert.ReferenceIdeal.Facts₀.gather_S65536x64_S1114112x1_S1114112x64_1_0_n_n_0_1_164_wf Cert.ReferenceIdeal.Facts₀.gather_S65536_S1114112x1_S1114112_n_0_n_n_0_1_1_wf
    (val_main_v65 (F := Ideal) x0 x1 x3 x4 x5 x6 x7 x8 x9) Pd (val_main_v16 (F := Ideal) x1) (val_main_v77 (F := Ideal) x1) (val_main_v71 (F := Ideal) x1)
    (val_main_v22 (F := Ideal) x1) (val_main_v29 (F := Ideal) x1)
    (Host.gather Cert.ReferenceIdeal.gather_S65536x64_S1114112x1_S1114112x64_1_0_n_n_0_1_164 Pd (val_main_v71 (F := Ideal) x1)) (val_main_v75 (F := Ideal) x0 x1 x3 x4 x5 x6 x7 x8 x9)
    (ref_dis_nonneg x1) hPd (fun _ => rfl) (ref_hcol1 x1) (fun _ _ => rfl) (ref_upd1 x0 x1 x3 x4 x5 x6 x7 x8 x9) n k
  have e45 : val_main_v78 (F := Ideal) x0 x1 x3 x4 x5 x6 x7 x8 x9
      = Host.scatterAdd (F := Ideal) (φ := .f32) Cert.ReferenceIdeal.scatter_S65536x64_S1114112x1_S1114112x64_1_0_0_1 (val_main_v76 (F := Ideal)) (val_main_v77 (F := Ideal) x1) (val_main_v75 (F := Ideal) x0 x1 x3 x4 x5 x6 x7 x8 x9) := rfl
  rw [e45, hostScatterAdd_eq, hostScatterAdd_eq, hz, refScatter_eq]
  exact key

theorem ref_bn1 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (n : Fin 65536) (c : Fin 64) :
    val_main_v97 (F := Ideal) x0 x1 x3 x4 x5 x6 x7 x8 x9 x10 x11 x12 x13 x14 (ix2 n c)
      = max ((((val_main_v78 (F := Ideal) x0 x1 x3 x4 x5 x6 x7 x8 x9 (ix2 n c) + x10 (ix1 c)) - x13 (ix1 c))
              * Ideal.rsqrt (x14 (ix1 c) + Ideal.ofBits .f32 0x3727C5AC#32)) * x11 (ix1 c) + x12 (ix1 c))
          (Ideal.ofBits .f32 0x00000000#32) := by
  have eb : val_main_v80 (F := Ideal) x10 (ix2 n c) = x10 (ix1 c) := by
    rw [val_main_v80_apply, val_main_v79_apply]; exact congrArg x10 (funext fun a => Fin.ext (by match a with | ⟨0, _⟩ => rfl))
  have em : val_main_v83 (F := Ideal) x13 (ix2 n c) = x13 (ix1 c) := by
    rw [val_main_v83_apply, val_main_v82_apply]; exact congrArg x13 (funext fun a => Fin.ext (by match a with | ⟨0, _⟩ => rfl))
  have ev : val_main_v89 (F := Ideal) x14 (ix2 n c) = Ideal.rsqrt (x14 (ix1 c) + Ideal.ofBits .f32 0x3727C5AC#32) := by
    have hi : idx_main_v88 (idx_main_v89 (ix2 n c)) = ix1 c := funext fun a => Fin.ext (by match a with | ⟨0, _⟩ => rfl)
    rw [val_main_v89_apply, val_main_v88_apply, hi, val_main_v87_apply, val_main_v86_apply, val_main_v85_apply, val_main_cst_14_apply]
    rfl
  have eg : val_main_v92 (F := Ideal) x11 (ix2 n c) = x11 (ix1 c) := by
    rw [val_main_v92_apply, val_main_v91_apply]; exact congrArg x11 (funext fun a => Fin.ext (by match a with | ⟨0, _⟩ => rfl))
  have ee : val_main_v95 (F := Ideal) x12 (ix2 n c) = x12 (ix1 c) := by
    rw [val_main_v95_apply, val_main_v94_apply]; exact congrArg x12 (funext fun a => Fin.ext (by match a with | ⟨0, _⟩ => rfl))
  have ez : val_main_call2_v0 (F := Ideal) (ix2 n c) = Ideal.ofBits .f32 0x00000000#32 := by
    rw [val_main_call2_v0_apply, val_main_call2_cst_apply]; rfl
  rw [val_main_v97_apply, val_main_v96_apply, val_main_v93_apply, val_main_v90_apply, val_main_v84_apply, val_main_v81_apply, eb, em, ev, eg, ee, ez]
  rfl

theorem ref_dot2 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (n : Fin 65536) (q : Fin 64) :
    val_main_v98 (F := Ideal) x0 x1 x3 x4 x5 x6 x7 x8 x9 x10 x11 x12 x13 x14 x15 (ix2 n q)
      = ∑ k : Fin 64, val_main_v97 (F := Ideal) x0 x1 x3 x4 x5 x6 x7 x8 x9 x10 x11 x12 x13 x14 (ix2 n k) * x15 (ix2 k q) := by
  rw [val_main_v98_apply]
  refine Finset.sum_congr rfl fun k _ => ?_
  have hl : lidx_main_v98 (ix2 n q) k = ix2 n k := funext fun a => Fin.ext (by match a with | ⟨0, _⟩ => rfl | ⟨1, _⟩ => rfl)
  have hr : ridx_main_v98 (ix2 n q) k = ix2 k q := funext fun a => Fin.ext (by match a with | ⟨0, _⟩ => rfl | ⟨1, _⟩ => rfl)
  rw [hl, hr]

theorem ref_v110_apply (x1 : (⟨S2x1048576, .i32⟩ : BufTy).Contents (Elt Ideal)) (e : Fin 1114112) :
    val_main_v110 (F := Ideal) x1 (ix2 e (0 : Fin 1)) = val_main_v6 (F := Ideal) x1 (ix1 e) := by
  have hi : idx_main_v110 (ix2 e (0 : Fin 1)) = ix1 e := funext fun a => Fin.ext (by match a with | ⟨0, _⟩ => rfl)
  rw [val_main_v110_apply, hi]

theorem ref_hcol2 (x1 : (⟨S2x1048576, .i32⟩ : BufTy).Contents (Elt Ideal)) (e : Fin 1114112)
    (h0 : 0 ≤ (val_main_v110 (F := Ideal) x1 (ix2 e (0 : Fin 1))).toInt)
    (_h1 : (val_main_v110 (F := Ideal) x1 (ix2 e (0 : Fin 1))).toInt < ((65536 : ℕ) : Int)) :
    val_main_v29 (F := Ideal) x1 (ix2 e (0 : Fin 1)) = val_main_v110 (F := Ideal) x1 (ix2 e (0 : Fin 1)) := by
  rw [ref_v110_apply] at h0 ⊢
  rw [ref_v29_apply]
  exact Cert.Val.normalise_of_nonneg _ _ h0

theorem ref_upd2 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (e : Fin 1114112) (k : Fin 64) :
    val_main_v108 (F := Ideal) x0 x1 x3 x4 x5 x6 x7 x8 x9 x10 x11 x12 x13 x14 x15 (ix2 e k)
      = Host.gather Cert.ReferenceIdeal.gather_S65536x64_S1114112x1_S1114112x64_1_0_n_n_0_1_164 (val_main_v98 (F := Ideal) x0 x1 x3 x4 x5 x6 x7 x8 x9 x10 x11 x12 x13 x14 x15) (val_main_v104 (F := Ideal) x1) (ix2 e k)
          * (Host.gather Cert.ReferenceIdeal.gather_S65536_S1114112x1_S1114112_n_0_n_n_0_1_1 (val_main_v16 (F := Ideal) x1) (val_main_v22 (F := Ideal) x1) (ix1 e)
              * Host.gather Cert.ReferenceIdeal.gather_S65536_S1114112x1_S1114112_n_0_n_n_0_1_1 (val_main_v16 (F := Ideal) x1) (val_main_v29 (F := Ideal) x1) (ix1 e)) := by
  have hi : idx_main_v106 (idx_main_v107 (ix2 e k)) = ix1 e := funext fun a => Fin.ext (by match a with | ⟨0, _⟩ => rfl)
  rw [val_main_v108_apply, val_main_v107_apply, val_main_v106_apply, hi, val_main_v31_apply, Ideal.mulf_def, Ideal.mulf_def]
  unfold val_main_v105 val_main_v23 val_main_v30
  rfl

theorem ref_agg2 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (Pd : (⟨S65536x64, .f32⟩ : BufTy).Contents (Elt Ideal))
    (hPd : ∀ (n : Fin 65536) (k : Fin 64), Pd (ix2 n k) = val_main_v98 (F := Ideal) x0 x1 x3 x4 x5 x6 x7 x8 x9 x10 x11 x12 x13 x14 x15 (ix2 n k) * val_main_v16 (F := Ideal) x1 (ix1 n))
    (n : Fin 65536) (k : Fin 64) :
    Host.scatterAdd (F := Ideal) (φ := .f32) Cert.ReferenceIdeal.scatter_S65536x64_S1114112x1_S1114112x64_1_0_0_1 (val_main_v109 (F := Ideal)) (val_main_v110 (F := Ideal) x1)
        (Host.gather Cert.ReferenceIdeal.gather_S65536x64_S1114112x1_S1114112x64_1_0_n_n_0_1_164 Pd (val_main_v104 (F := Ideal) x1)) (ix2 n k) * val_main_v16 (F := Ideal) x1 (ix1 n)
      = val_main_v111 (F := Ideal) x0 x1 x3 x4 x5 x6 x7 x8 x9 x10 x11 x12 x13 x14 x15 (ix2 n k) := by
  have hz : val_main_v109 (F := Ideal) = fun _ => (0 : EReal) := funext fun i => by
    rw [val_main_v109_apply, val_main_cst_17_apply]; exact Ideal.ofBits_zero_f32
  have key := Cert.Val.layer_law (N := 65536) (M := 1114112) (K := 64) (w := 32) (Nat.succ_pos _) Cert.ReferenceIdeal.Facts₀.scatter_S65536x64_S1114112x1_S1114112x64_1_0_0_1_wf Cert.ReferenceIdeal.Facts₀.gather_S65536x64_S1114112x1_S1114112x64_1_0_n_n_0_1_164_wf Cert.ReferenceIdeal.Facts₀.gather_S65536_S1114112x1_S1114112_n_0_n_n_0_1_1_wf
    (val_main_v98 (F := Ideal) x0 x1 x3 x4 x5 x6 x7 x8 x9 x10 x11 x12 x13 x14 x15) Pd (val_main_v16 (F := Ideal) x1) (val_main_v110 (F := Ideal) x1) (val_main_v104 (F := Ideal) x1)
    (val_main_v22 (F := Ideal) x1) (val_main_v29 (F := Ideal) x1)
    (Host.gather Cert.ReferenceIdeal.gather_S65536x64_S1114112x1_S1114112x64_1_0_n_n_0_1_164 Pd (val_main_v104 (F := Ideal) x1)) (val_main_v108 (F := Ideal) x0 x1 x3 x4 x5 x6 x7 x8 x9 x10 x11 x12 x13 x14 x15)
    (ref_dis_nonneg x1) hPd (fun _ => rfl) (ref_hcol2 x1) (fun _ _ => rfl) (ref_upd2 x0 x1 x3 x4 x5 x6 x7 x8 x9 x10 x11 x12 x13 x14 x15) n k
  have e45 : val_main_v111 (F := Ideal) x0 x1 x3 x4 x5 x6 x7 x8 x9 x10 x11 x12 x13 x14 x15
      = Host.scatterAdd (F := Ideal) (φ := .f32) Cert.ReferenceIdeal.scatter_S65536x64_S1114112x1_S1114112x64_1_0_0_1 (val_main_v109 (F := Ideal)) (val_main_v110 (F := Ideal) x1) (val_main_v108 (F := Ideal) x0 x1 x3 x4 x5 x6 x7 x8 x9 x10 x11 x12 x13 x14 x15) := rfl
  rw [e45, hostScatterAdd_eq, hostScatterAdd_eq, hz, refScatter_eq]
  exact key

theorem ref_bn2 (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (n : Fin 65536) (c : Fin 64) :
    val_main_v130 (F := Ideal) x0 x1 x3 x4 x5 x6 x7 x8 x9 x10 x11 x12 x13 x14 x15 x16 x17 x18 x19 x20 (ix2 n c)
      = max ((((val_main_v111 (F := Ideal) x0 x1 x3 x4 x5 x6 x7 x8 x9 x10 x11 x12 x13 x14 x15 (ix2 n c) + x16 (ix1 c)) - x19 (ix1 c))
              * Ideal.rsqrt (x20 (ix1 c) + Ideal.ofBits .f32 0x3727C5AC#32)) * x17 (ix1 c) + x18 (ix1 c))
          (Ideal.ofBits .f32 0x00000000#32) := by
  have eb : val_main_v113 (F := Ideal) x16 (ix2 n c) = x16 (ix1 c) := by
    rw [val_main_v113_apply, val_main_v112_apply]; exact congrArg x16 (funext fun a => Fin.ext (by match a with | ⟨0, _⟩ => rfl))
  have em : val_main_v116 (F := Ideal) x19 (ix2 n c) = x19 (ix1 c) := by
    rw [val_main_v116_apply, val_main_v115_apply]; exact congrArg x19 (funext fun a => Fin.ext (by match a with | ⟨0, _⟩ => rfl))
  have ev : val_main_v122 (F := Ideal) x20 (ix2 n c) = Ideal.rsqrt (x20 (ix1 c) + Ideal.ofBits .f32 0x3727C5AC#32) := by
    have hi : idx_main_v121 (idx_main_v122 (ix2 n c)) = ix1 c := funext fun a => Fin.ext (by match a with | ⟨0, _⟩ => rfl)
    rw [val_main_v122_apply, val_main_v121_apply, hi, val_main_v120_apply, val_main_v119_apply, val_main_v118_apply, val_main_cst_18_apply]
    rfl
  have eg : val_main_v125 (F := Ideal) x17 (ix2 n c) = x17 (ix1 c) := by
    rw [val_main_v125_apply, val_main_v124_apply]; exact congrArg x17 (funext fun a => Fin.ext (by match a with | ⟨0, _⟩ => rfl))
  have ee : val_main_v128 (F := Ideal) x18 (ix2 n c) = x18 (ix1 c) := by
    rw [val_main_v128_apply, val_main_v127_apply]; exact congrArg x18 (funext fun a => Fin.ext (by match a with | ⟨0, _⟩ => rfl))
  have ez : val_main_call3_v0 (F := Ideal) (ix2 n c) = Ideal.ofBits .f32 0x00000000#32 := by
    rw [val_main_call3_v0_apply, val_main_call3_cst_apply]; rfl
  rw [val_main_v130_apply, val_main_v129_apply, val_main_v126_apply, val_main_v123_apply, val_main_v117_apply, val_main_v114_apply, eb, em, ev, eg, ee, ez]
  rfl

theorem ref_v132_apply (x2 : (⟨S65536, .i32⟩ : BufTy).Contents (Elt Ideal)) (n : Fin 65536) :
    val_main_v132 (F := Ideal) x2 (ix2 n (0 : Fin 1)) = x2 (ix1 n) := by
  rw [val_main_v132_apply]; exact congrArg x2 (funext fun a => Fin.ext (by match a with | ⟨0, _⟩ => rfl))

theorem ref_v136_apply (x2 : (⟨S65536, .i32⟩ : BufTy).Contents (Elt Ideal)) (n : Fin 65536) :
    val_main_v136 (F := Ideal) x2 (ix2 n (0 : Fin 1)) = x2 (ix1 n) := by
  rw [val_main_v136_apply]; exact congrArg x2 (funext fun a => Fin.ext (by match a with | ⟨0, _⟩ => rfl))

theorem ref_pool (x0 : (⟨S65536x64, .f32⟩ : BufTy).Contents (Elt Ideal)) (x1 : (⟨S2x1048576, .i32⟩ : BufTy).Contents (Elt Ideal)) (x2 : (⟨S65536, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (q k : Fin 64) :
    val_main_v133 (F := Ideal) x0 x1 x2 x3 x4 x5 x6 x7 x8 x9 x10 x11 x12 x13 x14 x15 x16 x17 x18 x19 x20 (ix2 q k)
      = ∑ n : Fin 65536, (if x2 (ix1 n) = BitVec.ofNat 32 q.val then (1 : EReal) else 0) * val_main_v130 (F := Ideal) x0 x1 x3 x4 x5 x6 x7 x8 x9 x10 x11 x12 x13 x14 x15 x16 x17 x18 x19 x20 (ix2 n k) := by
  have hz : val_main_v131 (F := Ideal) = fun _ => (0 : EReal) := funext fun i => by
    rw [val_main_v131_apply, val_main_cst_19_apply]; exact Ideal.ofBits_zero_f32
  unfold val_main_v133
  rw [hz]
  refine (Cert.Val.pool_law (G := 64) (N := 65536) (K := 64) (by decide) Cert.ReferenceIdeal.Facts₀.scatter_S64x64_S65536x1_S65536x64_1_0_0_1_wf
    (val_main_v132 (F := Ideal) x2) (val_main_v130 (F := Ideal) x0 x1 x3 x4 x5 x6 x7 x8 x9 x10 x11 x12 x13 x14 x15 x16 x17 x18 x19 x20) q k).trans ?_
  refine Finset.sum_congr rfl fun n _ => ?_
  rw [sitofp_extui_cmpi_eq, ref_v132_apply]

theorem ref_count (x2 : (⟨S65536, .i32⟩ : BufTy).Contents (Elt Ideal)) (q : Fin 64) :
    val_main_v137 (F := Ideal) x2 (ix1 q) = ∑ n : Fin 65536, (if x2 (ix1 n) = BitVec.ofNat 32 q.val then (1 : EReal) else 0) := by
  have hz : val_main_v135 (F := Ideal) = fun _ => (0 : EReal) := funext fun i => by
    rw [val_main_v135_apply, val_main_cst_21_apply]; exact Ideal.ofBits_zero_f32
  unfold val_main_v137
  rw [hz]
  refine (Cert.Val.count_law (G := 64) (N := 65536) (by decide) Cert.ReferenceIdeal.Facts₀.scatter_S64_S65536x1_S65536_n_0_0_1_wf
    (val_main_v136 (F := Ideal) x2) (val_main_v134 (F := Ideal)) q).trans ?_
  refine Finset.sum_congr rfl fun n _ => ?_
  rw [sitofp_extui_cmpi_eq, ref_v136_apply, val_main_v134_apply, val_main_cst_20_apply, Ideal.ofBits_def, ofBits_one_f32, mul_one]

theorem ref_final (x0 : (⟨S65536x64, .f32⟩ : BufTy).Contents (Elt Ideal)) (x1 : (⟨S2x1048576, .i32⟩ : BufTy).Contents (Elt Ideal)) (x2 : (⟨S65536, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (q c : Fin 64) :
    val_main_v146 (F := Ideal) x0 x1 x2 x3 x4 x5 x6 x7 x8 x9 x10 x11 x12 x13 x14 x15 x16 x17 x18 x19 x20 x21 x22 (ix2 q c)
      = (∑ k : Fin 64, Ideal.div (val_main_v133 (F := Ideal) x0 x1 x2 x3 x4 x5 x6 x7 x8 x9 x10 x11 x12 x13 x14 x15 x16 x17 x18 x19 x20 (ix2 q k))
            (max (val_main_v137 (F := Ideal) x2 (ix1 q)) (Ideal.ofBits .f32 0x3F800000#32)) * x21 (ix2 k c))
          + x22 (ix1 c) := by
  have e22 : val_main_v145 (F := Ideal) x22 (ix2 q c) = x22 (ix1 c) := by
    rw [val_main_v145_apply, val_main_v144_apply]; exact congrArg x22 (funext fun a => Fin.ext (by match a with | ⟨0, _⟩ => rfl))
  have e141 : ∀ k : Fin 64, val_main_v141 (F := Ideal) x2 (ix2 q k)
      = max (val_main_v137 (F := Ideal) x2 (ix1 q)) (Ideal.ofBits .f32 0x3F800000#32) := fun k => by
    have hi : idx_main_v140 (idx_main_v141 (ix2 q k)) = ix1 q := funext fun a => Fin.ext (by match a with | ⟨0, _⟩ => rfl)
    rw [val_main_v141_apply, val_main_v140_apply, hi, val_main_v139_apply, val_main_v138_apply, val_main_cst_22_apply]
    rfl
  rw [val_main_v146_apply, val_main_v143_apply, e22, Ideal.addf_def]
  refine congrArg (· + x22 (ix1 c)) (Finset.sum_congr rfl fun k _ => ?_)
  have hl : lidx_main_v143 (ix2 q c) k = ix2 q k := funext fun a => Fin.ext (by match a with | ⟨0, _⟩ => rfl | ⟨1, _⟩ => rfl)
  have hr : ridx_main_v143 (ix2 q c) k = ix2 k c := funext fun a => Fin.ext (by match a with | ⟨0, _⟩ => rfl | ⟨1, _⟩ => rfl)
  rw [hl, hr, val_main_v142_apply, e141 k, Ideal.hostDivf_def]

end Cert.KernelIdeal.HandVal

end
-- ==== Proof.Val.KHostRef.lean ====
import proofs.«431363_j22273700397650_3_alg».proof.Proof.Val.KHost
import proofs.«431363_j22273700397650_3_alg».proof.Proof.RefRead

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

theorem disTerm_ref (x1 : (⟨S2x1048576, .i32⟩ : BufTy).Contents (Elt F)) : disTerm x1 = Cert.ReferenceIdeal.Read.val_main_v16 x1 := rfl

theorem aggTerm_ref_v45 (x1 : (⟨S2x1048576, .i32⟩ : BufTy).Contents (Elt F)) (h : (⟨S65536x64, .f32⟩ : BufTy).Contents (Elt F)) :
    aggTerm x1 h = Host.scatterAdd Cert.ReferenceIdeal.scatter_S65536x64_S1114112x1_S1114112x64_1_0_0_1 (Cert.ReferenceIdeal.Read.val_main_v43 (F := F)) (Cert.ReferenceIdeal.Read.val_main_v44 x1)
      (Host.gather Cert.ReferenceIdeal.gather_S65536x64_S1114112x1_S1114112x64_1_0_n_n_0_1_164 h (Cert.ReferenceIdeal.Read.val_main_v38 x1)) := rfl

theorem aggTerm_ref_v78 (x1 : (⟨S2x1048576, .i32⟩ : BufTy).Contents (Elt F)) (h : (⟨S65536x64, .f32⟩ : BufTy).Contents (Elt F)) :
    aggTerm x1 h = Host.scatterAdd Cert.ReferenceIdeal.scatter_S65536x64_S1114112x1_S1114112x64_1_0_0_1 (Cert.ReferenceIdeal.Read.val_main_v76 (F := F)) (Cert.ReferenceIdeal.Read.val_main_v77 x1)
      (Host.gather Cert.ReferenceIdeal.gather_S65536x64_S1114112x1_S1114112x64_1_0_n_n_0_1_164 h (Cert.ReferenceIdeal.Read.val_main_v71 x1)) := rfl

theorem aggTerm_ref_v111 (x1 : (⟨S2x1048576, .i32⟩ : BufTy).Contents (Elt F)) (h : (⟨S65536x64, .f32⟩ : BufTy).Contents (Elt F)) :
    aggTerm x1 h = Host.scatterAdd Cert.ReferenceIdeal.scatter_S65536x64_S1114112x1_S1114112x64_1_0_0_1 (Cert.ReferenceIdeal.Read.val_main_v109 (F := F)) (Cert.ReferenceIdeal.Read.val_main_v110 x1)
      (Host.gather Cert.ReferenceIdeal.gather_S65536x64_S1114112x1_S1114112x64_1_0_n_n_0_1_164 h (Cert.ReferenceIdeal.Read.val_main_v104 x1)) := rfl

end Cert.KernelIdeal.HandVal
-- ==== Proof.Val.Bridge.lean ====
import proofs.«431363_j22273700397650_3_alg».proof.Proof.Val.BridgeRef
import proofs.«431363_j22273700397650_3_alg».proof.Proof.Val.KVal
import proofs.«431363_j22273700397650_3_alg».proof.Proof.Val.KHostRef
import proofs.«431363_j22273700397650_3_alg».proof.Proof.LibColumn

set_option maxRecDepth 16384

noncomputable section

namespace Cert.KernelIdeal.HandVal

open Cert.KernelIdeal Cert.KernelIdeal.Gen
open Cert.ReferenceIdeal.Read
open Idealize.ShloMosaic Idealize.ShloMosaic.ValueIdx Idealize.SL.Sem

theorem disCol_apply (x1 : (⟨S2x1048576, .i32⟩ : BufTy).Contents (Elt Ideal)) (n : Fin 65536) :
    disCol x1 (ix2 n (0 : Fin 1)) = val_main_v16 (F := Ideal) x1 (ix1 n) := by
  unfold disCol
  rw [Cert.LibColumn.shapeCast_a_a1_apply, disTerm_ref]

theorem rowOf_apply (x : (⟨S64, .f32⟩ : BufTy).Contents (Elt Ideal)) (c : Fin 64) : rowOf x (ix2 (0 : Fin 1) c) = x (ix1 c) := by
  unfold rowOf
  rw [shapeCast_a_1a_apply]

theorem idsCol_apply (x2 : (⟨S65536, .i32⟩ : BufTy).Contents (Elt Ideal)) (n : Fin 65536) : idsCol x2 (ix2 n (0 : Fin 1)) = x2 (ix1 n) := by
  unfold idsCol
  rw [Cert.LibColumn.shapeCast_a_a1_apply]

theorem H0_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (n : Fin 65536) (k : Fin 64) :
    H0 x0 x1 x3 (ix2 n k) = val_main_v32 (F := Ideal) x0 x3 (ix2 n k) * val_main_v16 (F := Ideal) x1 (ix1 n) := by
  unfold H0
  rw [G0_apply, disCol_apply, ref_dot0]

theorem agg0_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (n : Fin 65536) (k : Fin 64) :
    aggTerm (F := Ideal) x1 (H0 x0 x1 x3) (ix2 n k) * val_main_v16 (F := Ideal) x1 (ix1 n)
      = val_main_v45 (F := Ideal) x0 x1 x3 (ix2 n k) := by
  rw [aggTerm_ref_v45]
  exact ref_agg0 x0 x1 x3 (H0 x0 x1 x3) (H0_apply x0 x1 x3) n k

theorem bn0_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (n : Fin 65536) (c : Fin 64) :
    bnrelu (aggTerm (F := Ideal) x1 (H0 x0 x1 x3)) (disCol x1) (rowOf x4) (rowOf x8) (rowOf x7) (rowOf x5) (rowOf x6) n c
      = val_main_v64 (F := Ideal) x0 x1 x3 x4 x5 x6 x7 x8 (ix2 n c) := by
  unfold bnrelu
  rw [ref_bn0, disCol_apply, rowOf_apply, rowOf_apply, rowOf_apply, rowOf_apply, rowOf_apply, agg0_apply]

theorem H1_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (n : Fin 65536) (q : Fin 64) :
    H1 x0 x1 x3 x4 x5 x6 x7 x8 x9 (ix2 n q)
      = val_main_v65 (F := Ideal) x0 x1 x3 x4 x5 x6 x7 x8 x9 (ix2 n q) * val_main_v16 (F := Ideal) x1 (ix1 n) := by
  unfold H1
  rw [G1_apply, disCol_apply, ref_dot1]
  refine congrArg (· * val_main_v16 (F := Ideal) x1 (ix1 n)) (Finset.sum_congr rfl fun k _ => ?_)
  rw [bn0_apply]

theorem agg1_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (n : Fin 65536) (k : Fin 64) :
    aggTerm (F := Ideal) x1 (H1 x0 x1 x3 x4 x5 x6 x7 x8 x9) (ix2 n k) * val_main_v16 (F := Ideal) x1 (ix1 n)
      = val_main_v78 (F := Ideal) x0 x1 x3 x4 x5 x6 x7 x8 x9 (ix2 n k) := by
  rw [aggTerm_ref_v78]
  exact ref_agg1 x0 x1 x3 x4 x5 x6 x7 x8 x9 (H1 x0 x1 x3 x4 x5 x6 x7 x8 x9) (H1_apply x0 x1 x3 x4 x5 x6 x7 x8 x9) n k

theorem bn1_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (n : Fin 65536) (c : Fin 64) :
    bnrelu (aggTerm (F := Ideal) x1 (H1 x0 x1 x3 x4 x5 x6 x7 x8 x9)) (disCol x1) (rowOf x10) (rowOf x14) (rowOf x13) (rowOf x11) (rowOf x12) n c
      = val_main_v97 (F := Ideal) x0 x1 x3 x4 x5 x6 x7 x8 x9 x10 x11 x12 x13 x14 (ix2 n c) := by
  unfold bnrelu
  rw [ref_bn1, disCol_apply, rowOf_apply, rowOf_apply, rowOf_apply, rowOf_apply, rowOf_apply, agg1_apply]

theorem H2_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (n : Fin 65536) (q : Fin 64) :
    H2 x0 x1 x3 x4 x5 x6 x7 x8 x9 x10 x11 x12 x13 x14 x15 (ix2 n q)
      = val_main_v98 (F := Ideal) x0 x1 x3 x4 x5 x6 x7 x8 x9 x10 x11 x12 x13 x14 x15 (ix2 n q) * val_main_v16 (F := Ideal) x1 (ix1 n) := by
  unfold H2
  rw [G1_apply, disCol_apply, ref_dot2]
  refine congrArg (· * val_main_v16 (F := Ideal) x1 (ix1 n)) (Finset.sum_congr rfl fun k _ => ?_)
  rw [bn1_apply]

theorem agg2_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (n : Fin 65536) (k : Fin 64) :
    aggTerm (F := Ideal) x1 (H2 x0 x1 x3 x4 x5 x6 x7 x8 x9 x10 x11 x12 x13 x14 x15) (ix2 n k) * val_main_v16 (F := Ideal) x1 (ix1 n)
      = val_main_v111 (F := Ideal) x0 x1 x3 x4 x5 x6 x7 x8 x9 x10 x11 x12 x13 x14 x15 (ix2 n k) := by
  rw [aggTerm_ref_v111]
  exact ref_agg2 x0 x1 x3 x4 x5 x6 x7 x8 x9 x10 x11 x12 x13 x14 x15 (H2 x0 x1 x3 x4 x5 x6 x7 x8 x9 x10 x11 x12 x13 x14 x15) (H2_apply x0 x1 x3 x4 x5 x6 x7 x8 x9 x10 x11 x12 x13 x14 x15) n k

theorem bn2_apply (x0 : (⟨S65536x64, .f32⟩ : BufTy).Contents (Elt Ideal)) (x1 : (⟨S2x1048576, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (n : Fin 65536) (c : Fin 64) :
    bnrelu (aggTerm (F := Ideal) x1 (H2 x0 x1 x3 x4 x5 x6 x7 x8 x9 x10 x11 x12 x13 x14 x15)) (disCol x1) (rowOf x16) (rowOf x20) (rowOf x19) (rowOf x17) (rowOf x18) n c
      = val_main_v130 (F := Ideal) x0 x1 x3 x4 x5 x6 x7 x8 x9 x10 x11 x12 x13 x14 x15 x16 x17 x18 x19 x20 (ix2 n c) := by
  unfold bnrelu
  rw [ref_bn2, disCol_apply, rowOf_apply, rowOf_apply, rowOf_apply, rowOf_apply, rowOf_apply, agg2_apply]

theorem KVal_apply (x0 : (⟨S65536x64, .f32⟩ : BufTy).Contents (Elt Ideal)) (x1 : (⟨S2x1048576, .i32⟩ : BufTy).Contents (Elt Ideal)) (x2 : (⟨S65536, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (q c : Fin 64) :
    KVal x0 x1 x2 x3 x4 x5 x6 x7 x8 x9 x10 x11 x12 x13 x14 x15 x16 x17 x18 x19 x20 x21 x22 (ix2 q c) = val_main_v146 (F := Ideal) x0 x1 x2 x3 x4 x5 x6 x7 x8 x9 x10 x11 x12 x13 x14 x15 x16 x17 x18 x19 x20 x21 x22 (ix2 q c) := by
  unfold KVal
  rw [G3_apply, ref_final, rowOf_apply]
  refine congrArg (· + x22 (ix1 c)) (Finset.sum_congr rfl fun k _ => ?_)
  rw [ref_pool, ref_count]
  have hs : ∀ n : Fin 65536, oh (idsCol x2) n q = (if x2 (ix1 n) = BitVec.ofNat 32 q.val then (1 : EReal) else 0) := fun n => by
    unfold oh; rw [idsCol_apply]
  have h1 : (∑ n : Fin 65536, oh (idsCol x2) n q
        * bnrelu (aggTerm (F := Ideal) x1 (H2 x0 x1 x3 x4 x5 x6 x7 x8 x9 x10 x11 x12 x13 x14 x15)) (disCol x1) (rowOf x16) (rowOf x20) (rowOf x19) (rowOf x17) (rowOf x18) n k)
      = ∑ n : Fin 65536, (if x2 (ix1 n) = BitVec.ofNat 32 q.val then (1 : EReal) else 0)
          * val_main_v130 (F := Ideal) x0 x1 x3 x4 x5 x6 x7 x8 x9 x10 x11 x12 x13 x14 x15 x16 x17 x18 x19 x20 (ix2 n k) :=
    Finset.sum_congr rfl fun n _ => by rw [hs, bn2_apply]
  have h2 : (∑ n : Fin 65536, oh (idsCol x2) n q) = ∑ n : Fin 65536, (if x2 (ix1 n) = BitVec.ofNat 32 q.val then (1 : EReal) else 0) :=
    Finset.sum_congr rfl fun n _ => hs n
  rw [h1, h2]

theorem bridge_pure (x0 : (⟨S65536x64, .f32⟩ : BufTy).Contents (Elt Ideal)) (x1 : (⟨S2x1048576, .i32⟩ : BufTy).Contents (Elt Ideal)) (x2 : (⟨S65536, .i32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) :
    KVal x0 x1 x2 x3 x4 x5 x6 x7 x8 x9 x10 x11 x12 x13 x14 x15 x16 x17 x18 x19 x20 x21 x22 = val_main_v146 (F := Ideal) x0 x1 x2 x3 x4 x5 x6 x7 x8 x9 x10 x11 x12 x13 x14 x15 x16 x17 x18 x19 x20 x21 x22 := by
  funext i
  obtain ⟨q, c, rfl⟩ : ∃ (q : Fin 64) (c : Fin 64), i = ix2 q c := ⟨i 0, i 1, eq_ix2 i⟩
  exact KVal_apply x0 x1 x2 x3 x4 x5 x6 x7 x8 x9 x10 x11 x12 x13 x14 x15 x16 x17 x18 x19 x20 x21 x22 q c

end Cert.KernelIdeal.HandVal

end
-- ==== Proof.lean ====
/- Three graph-convolution layers with symmetric normalisation, then the mean over each graph's nodes mapped
   linearly. The kernel program scales the projected rows by the degree factor before each edge sum and the summed
   rows after it, where the reference scales edge by edge: a nonnegative real factor distributes over any finite sum
   of extended reals. Pooling by graph id is the contraction with the ids' one-hot matrix, block sums added up. -/
import proofs.«431363_j22273700397650_3_alg».proof.Defs
import proofs.«431363_j22273700397650_3_alg».proof.Proof.Gen.Kernel
import proofs.«431363_j22273700397650_3_alg».proof.Proof.Gen.Kernel.Skeleton
import proofs.«431363_j22273700397650_3_alg».proof.Proof.Gen.Kernel.Launch
import proofs.«431363_j22273700397650_3_alg».proof.Proof.Gen.Kernel.Regions
import proofs.«431363_j22273700397650_3_alg».proof.Proof.Gen.Kernel.Points
import proofs.«431363_j22273700397650_3_alg».proof.Proof.Gen.KernelIdeal
import proofs.«431363_j22273700397650_3_alg».proof.Proof.Gen.KernelIdeal.Skeleton
import proofs.«431363_j22273700397650_3_alg».proof.Proof.Gen.KernelIdeal.Launch
import proofs.«431363_j22273700397650_3_alg».proof.Proof.Gen.KernelIdeal.Regions
import proofs.«431363_j22273700397650_3_alg».proof.Proof.Gen.KernelIdeal.Points
import proofs.«431363_j22273700397650_3_alg».proof.Proof.Gen.ReferenceIdeal
import proofs.«431363_j22273700397650_3_alg».proof.Proof.Gen.Pre_finite_inputs
import proofs.«431363_j22273700397650_3_alg».proof.Proof.KI.Run
import proofs.«431363_j22273700397650_3_alg».proof.Proof.SameProgram
import proofs.«431363_j22273700397650_3_alg».proof.Proof.RefRun
import proofs.«431363_j22273700397650_3_alg».proof.Proof.RefRead
import proofs.«431363_j22273700397650_3_alg».proof.Proof.Val.KernelValue
import proofs.«431363_j22273700397650_3_alg».proof.Proof.Val.Bridge
import Idealize.ShloMosaic.Adequacy
import Idealize.ShloMosaic.Init

noncomputable section

namespace Cert.Proof

open Idealize.ShloMosaic Idealize.ShloMosaic.TcCoe Idealize.SL.Sem

-- The word-level program is the idealized program's text, and its run is proved for every float carrier.
set_option maxHeartbeats 4000000 in
theorem frame_k : Cert.frame_Kernel (hKernel := Cert.Kernel.Gen.facts) (hPre_finite_inputs := Cert.Pre_finite_inputs.Gen.facts) :=
  fun m ρ _ => by
    have h := Cert.KernelIdeal.Hand.run_value (F := Bits) m ρ
    rw [← defs_eq] at h
    exact (θ_run Cert.Kernel.defs _ _).mono (fun _ h c => (h c).2) h

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_value (F := Ideal) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V10 m (Cert.KernelIdeal.Hand.outs m) c Cert.KernelIdeal.main_v68,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v146_eq m' c]
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact ((Cert.KernelIdeal.HandVal.kernel_value m c).trans
    (Cert.KernelIdeal.HandVal.bridge_pure _ _ _ _ _ _ _ _ _ _ _ _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
